-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048x32 : Shape := ⟨3, ![2048, 2048, 32]⟩
abbrev S2048 : Shape := ⟨1, ![2048]⟩
abbrev S3x256x96 : Shape := ⟨3, ![3, 256, 96]⟩
abbrev S3x256 : Shape := ⟨2, ![3, 256]⟩
abbrev S3x128x256 : Shape := ⟨3, ![3, 128, 256]⟩
abbrev S3x128 : Shape := ⟨2, ![3, 128]⟩
abbrev S3x2x128 : Shape := ⟨3, ![3, 2, 128]⟩
abbrev S3x2 : Shape := ⟨2, ![3, 2]⟩
abbrev S_ : Shape := ⟨0, ![]⟩

class Facts : Prop where
  bcast_S_S2048x2048x32 : S_.BroadcastsInDim S2048x2048x32 (![] : Fin 0 → Fin S2048x2048x32.rank)
  reducesTo_S2048x2048x32_S_d0_1_2 : S2048x2048x32.ReducesTo [0, 1, 2] S_
  h_S_ : 0 < S_.numel
  bcast_S_S3x256x96 : S_.BroadcastsInDim S3x256x96 (![] : Fin 0 → Fin S3x256x96.rank)
  reducesTo_S3x256x96_S_d0_1_2 : S3x256x96.ReducesTo [0, 1, 2] S_
  bcast_S_S3x256 : S_.BroadcastsInDim S3x256 (![] : Fin 0 → Fin S3x256.rank)
  reducesTo_S3x256_S_d0_1 : S3x256.ReducesTo [0, 1] S_
  bcast_S_S3x128x256 : S_.BroadcastsInDim S3x128x256 (![] : Fin 0 → Fin S3x128x256.rank)
  reducesTo_S3x128x256_S_d0_1_2 : S3x128x256.ReducesTo [0, 1, 2] S_
  bcast_S_S3x128 : S_.BroadcastsInDim S3x128 (![] : Fin 0 → Fin S3x128.rank)
  reducesTo_S3x128_S_d0_1 : S3x128.ReducesTo [0, 1] S_
  bcast_S_S3x2x128 : S_.BroadcastsInDim S3x2x128 (![] : Fin 0 → Fin S3x2x128.rank)
  reducesTo_S3x2x128_S_d0_1_2 : S3x2x128.ReducesTo [0, 1, 2] S_
  bcast_S_S3x2 : S_.BroadcastsInDim S3x2 (![] : Fin 0 → Fin S3x2.rank)
  reducesTo_S3x2_S_d0_1 : S3x2.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_arg1 : IVec S2048 32) (main_v48 : IVec S_ 1) (main_v49 : FVec F S3x2 .f32) (main_v50 : FVec F S3x2 .f32) : IVec S_ 1 :=
  let main_v51 : IVec S3x2 1 := cmpf .olt main_v49 main_v50
  let main_c_19 : IVec S_ 1 := constantI S_ 1 1#1
  let main_v52 : IVec S_ 1 := (fun x v => Host.reduce IntOp.andi x v reducesTo_S3x2_S_d0_1 h_S_) main_v51 main_c_19
  let main_v53 : IVec S_ 1 := andi main_v48 main_v52
  let main_c_20 : IVec S_ 32 := constantI S_ 32 2#32
  let main_v54 : IVec S2048 32 := broadcastInDim S2048 ![] bcast_S_S2048 main_c_20
  let main_v55 : IVec S2048 1 := cmpi .sge main_arg1 main_v54
  let main_c_21 : IVec S_ 1 := constantI S_ 1 1#1
  let main_v56 : IVec S_ 1 := (fun x v => Host.reduce IntOp.andi x v reducesTo_S2048_S_d0 h_S_) main_v55 main_c_21
  let main_v57 : IVec S_ 1 := andi main_v53 main_v56
  let main_c_22 : IVec S_ 32 := constantI S_ 32 2048#32
  let main_v58 : IVec S2048 32 := broadcastInDim S2048 ![] bcast_S_S2048 main_c_22
  let main_v59 : IVec S2048 1 := cmpi .sle main_arg1 main_v58
  let main_c_23 : IVec S_ 1 := constantI S_ 1 1#1
  let main_v60 : IVec S_ 1 := (fun x v => Host.reduce IntOp.andi x v reducesTo_S2048_S_d0 h_S_) main_v59 main_c_23
  let main_v61 : IVec S_ 1 := andi main_v57 main_v60
  main_v61

def fn_part2 {F : FTy → Type} [FloatOps F] (main_arg1 : IVec S2048 32) (main_arg8 : FVec F S3x128 .f32) (main_arg9 : FVec F S3x128 .f32) (main_arg10 : FVec F S3x2x128 .f32) (main_arg11 : FVec F S3x2 .f32) (main_v33 : IVec S_ 1) : IVec S_ 1 :=
  let main_v34 : FVec F S3x128 .f32 := Host.absf main_arg8
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128 .f32 := Host.absf main_arg9
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S3x2x128 .f32 := Host.absf main_arg10
  let main_cst_16 : FVec F S_ .f32 := constant S_ .f32 0x7F800000#32
  let main_v45 : FVec F S3x2x128 .f32 := broadcastInDim S3x2x128 ![] bcast_S_S3x2x128 main_cst_16
  let main_v46 : IVec S3x2x128 1 := cmpf .olt main_v44 main_v45
  let main_c_17 : IVec S_ 1 := constantI S_ 1 1#1
  let main_v47 : IVec S_ 1 := (fun x v => Host.reduce IntOp.andi x v reducesTo_S3x2x128_S_d0_1_2 h_S_) main_v46 main_c_17
  let main_v48 : IVec S_ 1 := andi main_v43 main_v47
  let main_v49 : FVec F S3x2 .f32 := Host.absf main_arg11
  let main_cst_18 : FVec F S_ .f32 := constant S_ .f32 0x7F800000#32
  let main_v50 : FVec F S3x2 .f32 := broadcastInDim S3x2 ![] bcast_S_S3x2 main_cst_18
  fn_part3 (F := F) main_arg1 main_v48 main_v49 main_v50

def fn_part1 {F : FTy → Type} [FloatOps F] (main_arg1 : IVec S2048 32) (main_arg5 : FVec F S3x256 .f32) (main_arg6 : FVec F S3x128x256 .f32) (main_arg7 : FVec F S3x128 .f32) (main_arg8 : FVec F S3x128 .f32) (main_arg9 : FVec F S3x128 .f32) (main_arg10 : FVec F S3x2x128 .f32) (main_arg11 : FVec F S3x2 .f32) (main_v13 : IVec S_ 1) (main_v16 : IVec S3x256 1) : IVec S_ 1 :=
  let main_c_5 : IVec S_ 1 := constantI S_ 1 1#1
  let main_v17 : IVec S_ 1 := (fun x v => Host.reduce IntOp.andi x v reducesTo_S3x256_S_d0_1 h_S_) main_v16 main_c_5
  let main_v18 : IVec S_ 1 := andi main_v13 main_v17
  let main_v19 : FVec F S3x256 .f32 := Host.absf main_arg5
  let main_cst_6 : FVec F S_ .f32 := constant S_ .f32 0x7F800000#32
  let main_v20 : FVec F S3x256 .f32 := broadcastInDim S3x256 ![] bcast_S_S3x256 main_cst_6
  let main_v21 : IVec S3x256 1 := cmpf .olt main_v19 main_v20
  let main_c_7 : IVec S_ 1 := constantI S_ 1 1#1
  let main_v22 : IVec S_ 1 := (fun x v => Host.reduce IntOp.andi x v reducesTo_S3x256_S_d0_1 h_S_) main_v21 main_c_7
  let main_v23 : IVec S_ 1 := andi main_v18 main_v22
  let main_v24 : FVec F S3x128x256 .f32 := Host.absf main_arg6
  let main_cst_8 : FVec F S_ .f32 := constant S_ .f32 0x7F800000#32
  let main_v25 : FVec F S3x128x256 .f32 := broadcastInDim S3x128x256 ![] bcast_S_S3x128x256 main_cst_8
  let main_v26 : IVec S3x128x256 1 := cmpf .olt main_v24 main_v25
  let main_c_9 : IVec S_ 1 := constantI S_ 1 1#1
  let main_v27 : IVec S_ 1 := (fun x v => Host.reduce IntOp.andi x v reducesTo_S3x128x256_S_d0_1_2 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg1 main_arg8 main_arg9 main_arg10 main_arg11 main_v33

def fn {F : FTy → Type} [FloatOps F] (main_arg0 : FVec F S2048x2048x32 .f32) (main_arg1 : IVec S2048 32) (main_arg2 : FVec F S3x256x96 .f32) (main_arg3 : FVec F S3x256 .f32) (main_arg4 : FVec F S3x256 .f32) (main_arg5 : FVec F S3x256 .f32) (main_arg6 : FVec F S3x128x256 .f32) (main_arg7 : FVec F S3x128 .f32) (main_arg8 : FVec F S3x128 .f32) (main_arg9 : FVec F S3x128 .f32) (main_arg10 : FVec F S3x2x128 .f32) (main_arg11 : FVec F S3x2 .f32) : IVec S_ 1 :=
  let main_v0 : FVec F S2048x2048x32 .f32 := Host.absf main_arg0
  let main_cst : FVec F S_ .f32 := constant S_ .f32 0x7F800000#32
  let main_v1 : FVec F S2048x2048x32 .f32 := broadcastInDim S2048x2048x32 ![] bcast_S_S2048x2048x32 main_cst
  let main_v2 : IVec S2048x2048x32 1 := cmpf .olt main_v0 main_v1
  let main_c : IVec S_ 1 := constantI S_ 1 1#1
  let main_v3 : IVec S_ 1 := (fun x v => Host.reduce IntOp.andi x v reducesTo_S2048x2048x32_S_d0_1_2 h_S_) main_v2 main_c
  let main_v4 : FVec F S3x256x96 .f32 := Host.absf main_arg2
  let main_cst_0 : FVec F S_ .f32 := constant S_ .f32 0x7F800000#32
  let main_v5 : FVec F S3x256x96 .f32 := broadcastInDim S3x256x96 ![] bcast_S_S3x256x96 main_cst_0
  let main_v6 : IVec S3x256x96 1 := cmpf .olt main_v4 main_v5
  let main_c_1 : IVec S_ 1 := constantI S_ 1 1#1
  let main_v7 : IVec S_ 1 := (fun x v => Host.reduce IntOp.andi x v reducesTo_S3x256x96_S_d0_1_2 h_S_) main_v6 main_c_1
  let main_v8 : IVec S_ 1 := andi main_v3 main_v7
  let main_v9 : FVec F S3x256 .f32 := Host.absf main_arg3
  let main_cst_2 : FVec F S_ .f32 := constant S_ .f32 0x7F800000#32
  let main_v10 : FVec F S3x256 .f32 := broadcastInDim S3x256 ![] bcast_S_S3x256 main_cst_2
  let main_v11 : IVec S3x256 1 := cmpf .olt main_v9 main_v10
  let main_c_3 : IVec S_ 1 := constantI S_ 1 1#1
  let main_v12 : IVec S_ 1 := (fun x v => Host.reduce IntOp.andi x v reducesTo_S3x256_S_d0_1 h_S_) main_v11 main_c_3
  let main_v13 : IVec S_ 1 := andi main_v8 main_v12
  let main_v14 : FVec F S3x256 .f32 := Host.absf main_arg4
  let main_cst_4 : FVec F S_ .f32 := constant S_ .f32 0x7F800000#32
  let main_v15 : FVec F S3x256 .f32 := broadcastInDim S3x256 ![] bcast_S_S3x256 main_cst_4
  let main_v16 : IVec S3x256 1 := cmpf .olt main_v14 main_v15
  fn_part1 (F := F) main_arg1 main_arg5 main_arg6 main_arg7 main_arg8 main_arg9 main_arg10 main_arg11 main_v13 main_v16
-- ==== Kernel.lean ====
abbrev S2048x2048x32 : Shape := ⟨3, ![2048, 2048, 32]⟩
abbrev S2048 : Shape := ⟨1, ![2048]⟩
abbrev S3x256x96 : Shape := ⟨3, ![3, 256, 96]⟩
abbrev S3x256 : Shape := ⟨2, ![3, 256]⟩
abbrev S3x128x256 : Shape := ⟨3, ![3, 128, 256]⟩
abbrev S3x128 : Shape := ⟨2, ![3, 128]⟩
abbrev S3x2x128 : Shape := ⟨3, ![3, 2, 128]⟩
abbrev S3x2 : Shape := ⟨2, ![3, 2]⟩
abbrev S2048x1 : Shape := ⟨2, ![2048, 1]⟩
abbrev S2048x96 : Shape := ⟨2, ![2048, 96]⟩
abbrev S256x128x32 : Shape := ⟨3, ![256, 128, 32]⟩
abbrev S256x1 : Shape := ⟨2, ![256, 1]⟩
abbrev S256x96 : Shape := ⟨2, ![256, 96]⟩
abbrev S256x32 : Shape := ⟨2, ![256, 32]⟩
abbrev S256x128 : Shape := ⟨2, ![256, 128]⟩
abbrev S256x128x1 : Shape := ⟨3, ![256, 128, 1]⟩
abbrev S2048x2 : Shape := ⟨2, ![2048, 2]⟩
abbrev S1x256x96 : Shape := ⟨3, ![1, 256, 96]⟩
abbrev S1x256 : Shape := ⟨2, ![1, 256]⟩
abbrev S256 : Shape := ⟨1, ![256]⟩
abbrev S96x256 : Shape := ⟨2, ![96, 256]⟩
abbrev S2048x256 : Shape := ⟨2, ![2048, 256]⟩
abbrev S1x128x256 : Shape := ⟨3, ![1, 128, 256]⟩
abbrev S128x256 : Shape := ⟨2, ![128, 256]⟩
abbrev S1x128 : Shape := ⟨2, ![1, 128]⟩
abbrev S128 : Shape := ⟨1, ![128]⟩
abbrev S2048x128 : Shape := ⟨2, ![2048, 128]⟩
abbrev S1x2x128 : Shape := ⟨3, ![1, 2, 128]⟩
abbrev S2x128 : Shape := ⟨2, ![2, 128]⟩
abbrev S1x2 : Shape := ⟨2, ![1, 2]⟩
abbrev S2 : Shape := ⟨1, ![2]⟩
abbrev S128x2 : Shape := ⟨2, ![128, 2]⟩

abbrev nBuf : Space → Nat
  | .hbm => 15
  | .vmem => 21
  | .smem => 0
  | _ => 0

abbrev bufTy : (tb : Table) → Fin (tcTables nBuf tb) → BufTy
  | .hbm, ⟨0, _⟩ => ⟨S2048x2048x32, .f32⟩
  | .hbm, ⟨1, _⟩ => ⟨S2048, .i32⟩
  | .hbm, ⟨2, _⟩ => ⟨S3x256x96, .f32⟩
  | .hbm, ⟨3, _⟩ => ⟨S3x256, .f32⟩
  | .hbm, ⟨4, _⟩ => ⟨S3x256, .f32⟩
  | .hbm, ⟨5, _⟩ => ⟨S3x256, .f32⟩
  | .hbm, ⟨6, _⟩ => ⟨S3x128x256, .f32⟩
  | .hbm, ⟨7, _⟩ => ⟨S3x128, .f32⟩
  | .hbm, ⟨8, _⟩ => ⟨S3x128, .f32⟩
  | .hbm, ⟨9, _⟩ => ⟨S3x128, .f32⟩
  | .hbm, ⟨10, _⟩ => ⟨S3x2x128, .f32⟩
  | .hbm, ⟨11, _⟩ => ⟨S3x2, .f32⟩
  | .hbm, ⟨12, _⟩ => ⟨S2048x1, .i32⟩
  | .hbm, ⟨13, _⟩ => ⟨S2048x96, .f32⟩
  | .hbm, ⟨14, _⟩ => ⟨S2048x2, .f32⟩
  | .local _ .vmem, ⟨0, _⟩ => ⟨S256x128x32, .f32⟩
  | .local _ .vmem, ⟨1, _⟩ => ⟨S256x128x32, .f32⟩
  | .local _ .vmem, ⟨2, _⟩ => ⟨S256x1, .i32⟩
  | .local _ .vmem, ⟨3, _⟩ => ⟨S256x1, .i32⟩
  | .local _ .vmem, ⟨4, _⟩ => ⟨S256x96, .f32⟩
  | .local _ .vmem, ⟨5, _⟩ => ⟨S256x96, .f32⟩
  | .local _ .vmem, ⟨6, _⟩ => ⟨S256x32, .f32⟩
  | .local _ .vmem, ⟨7, _⟩ => ⟨S256x32, .f32⟩
  | .local _ .vmem, ⟨8, _⟩ => ⟨S256x32, .f32⟩
  | .local _ .vmem, ⟨9, _⟩ => ⟨S2048x96, .f32⟩
  | .local _ .vmem, ⟨10, _⟩ => ⟨S3x256x96, .f32⟩
  | .local _ .vmem, ⟨11, _⟩ => ⟨S3x256, .f32⟩
  | .local _ .vmem, ⟨12, _⟩ => ⟨S3x256, .f32⟩
  | .local _ .vmem, ⟨13, _⟩ => ⟨S3x256, .f32⟩
  | .local _ .vmem, ⟨14, _⟩ => ⟨S3x128x256, .f32⟩
  | .local _ .vmem, ⟨15, _⟩ => ⟨S3x128, .f32⟩
  | .local _ .vmem, ⟨16, _⟩ => ⟨S3x128, .f32⟩
  | .local _ .vmem, ⟨17, _⟩ => ⟨S3x128, .f32⟩
  | .local _ .vmem, ⟨18, _⟩ => ⟨S3x2x128, .f32⟩
  | .local _ .vmem, ⟨19, _⟩ => ⟨S3x2, .f32⟩
  | .local _ .vmem, ⟨20, _⟩ => ⟨S2048x2, .f32⟩
  | _, _ => ⟨S2048x2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_stg11_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc1_sem10_0 : DmaSem sig := 16
abbrev cc1_sem11_0 : DmaSem sig := 17

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v47 : BitVec 1 := Scalar.cmpi .eq arg1 c15_i32
  let v48 : BitVec 32 := Scalar.extui v47
  let c0_i32_19 : BitVec 32 := 0#32
  let v49 : BitVec 1 := Scalar.cmpi .ne v48 c0_i32_19
  v49

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x128x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2048x96 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S3x256x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S3x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S3x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S3x128x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S3x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S3x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S3x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S3x2x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S3x2 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S2048x2 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

class Facts₀ : Prop where
  shapeCasts_S2048_S2048x1 : S2048.ShapeCasts S2048x1
  inb_S256x32_S256x32_0_0 : ∀ a, (![0, 0] : Fin 2 → Nat) a + S256x32.size a ≤ S256x32.size a
  h_S256x32 : 0 < S256x32.numel
  shapeCasts_S256x32_S256x32 : S256x32.ShapeCasts S256x32
  iota_S256x128_d1_w32 : S256x128.Iotas .tc 32 [1]
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x128 : S256x1.Broadcasts S256x128
  natLt_1_32 : 1 < 32
  inb_S256x128x32_S256x128x32_0_0_0 : ∀ a, (![0, 0, 0] : Fin 3 → Nat) a + S256x128x32.size a ≤ S256x128x32.size a
  h_S256x128x32 : 0 < S256x128x32.numel
  shapeCasts_S256x128_S256x128x1 : S256x128.ShapeCasts S256x128x1
  broadcasts_S256x128x1_S256x128x32 : S256x128x1.Broadcasts S256x128x32
  reduces_S256x128x32_S256x32 : S256x128x32.Reduces [1] S256x32
  broadcasts_S256x1_S256x32 : S256x1.Broadcasts S256x32
  inb_S256x96_S256x32_0_0 : ∀ a, (![0, 0] : Fin 2 → Nat) a + S256x32.size a ≤ S256x96.size a
  inb_S256x96_S256x32_0_32 : ∀ a, (![0, 32] : Fin 2 → Nat) a + S256x32.size a ≤ S256x96.size a
  inb_S256x96_S256x32_0_64 : ∀ a, (![0, 64] : Fin 2 → Nat) a + S256x32.size a ≤ S256x96.size a
  inb_S2048x96_S2048x96_0_0 : ∀ a, (![0, 0] : Fin 2 → Nat) a + S2048x96.size a ≤ S2048x96.size a
  h_S2048x96 : 0 < S2048x96.numel
  shapeCasts_S2048x96_S2048x96 : S2048x96.ShapeCasts S2048x96
  inb_S3x256x96_S1x256x96_0_0_0 : ∀ a, (![0, 0, 0] : Fin 3 → Nat) a + S1x256x96.size a ≤ S3x256x96.size a
  h_S1x256x96 : 0 < S1x256x96.numel
  shapeCasts_S1x256x96_S256x96 : S1x256x96.ShapeCasts S256x96
  inb_S3x256_S1x256_0_0 : ∀ a, (![0, 0] : Fin 2 → Nat) a + S1x256.size a ≤ S3x256.size a
  h_S1x256 : 0 < S1x256.numel
  shapeCasts_S1x256_S256 : S1x256.ShapeCasts S256
  bitsLt_bf16_f32 : FTy.bits .bf16 < FTy.bits .f32
  transposes_S256x96_p1_0_S96x256 : S256x96.Transposes [1, 0] S96x256
  shapeCasts_S256_S1x256 : S256.ShapeCasts S1x256
  broadcasts_S1x256_S2048x256 : S1x256.Broadcasts S2048x256
  reduces_S2048x256_S256 : S2048x256.Reduces [0] S256
  inb_S3x128x256_S1x128x256_0_0_0 : ∀ a, (![0, 0, 0] : Fin 3 → Nat) a + S1x128x256.size a ≤ S3x128x256.size a
  h_S1x128x256 : 0 < S1x128x256.numel
  shapeCasts_S1x128x256_S128x256 : S1x128x256.ShapeCasts S128x256
  inb_S3x128_S1x128_0_0 : ∀ a, (![0, 0] : Fin 2 → Nat) a + S1x128.size a ≤ S3x128.size a
  h_S1x128 : 0 < S1x128.numel
  shapeCasts_S1x128_S128 : S1x128.ShapeCasts S128
  transposes_S128x256_p1_0_S256x128 : S128x256.Transposes [1, 0] S256x128
  shapeCasts_S128_S1x128 : S128.ShapeCasts S1x128
  broadcasts_S1x128_S2048x128 : S1x128.Broadcasts S2048x128
  reduces_S2048x128_S128 : S2048x128.Reduces [0] S128
  inb_S3x2x128_S1x2x128_0_0_0 : ∀ a, (![0, 0, 0] : Fin 3 → Nat) a + S1x2x128.size a ≤ S3x2x128.size a
  h_S1x2x128 : 0 < S1x2x128.numel
  shapeCasts_S1x2x128_S2x128 : S1x2x128.ShapeCasts S2x128
  inb_S3x2_S1x2_0_0 : ∀ a, (![0, 0] : Fin 2 → Nat) a + S1x2.size a ≤ S3x2.size a
  h_S1x2 : 0 < S1x2.numel
  shapeCasts_S1x2_S2 : S1x2.ShapeCasts S2
  transposes_S2x128_p1_0_S128x2 : S2x128.Transposes [1, 0] S128x2
  shapeCasts_S2_S1x2 : S2.ShapeCasts S1x2
  broadcasts_S1x2_S2048x2 : S1x2.Broadcasts S2048x2
  inb_S3x256x96_S1x256x96_1_0_0 : ∀ a, (![1, 0, 0] : Fin 3 → Nat) a + S1x256x96.size a ≤ S3x256x96.size a
  inb_S3x256_S1x256_1_0 : ∀ a, (![1, 0] : Fin 2 → Nat) a + S1x256.size a ≤ S3x256.size a
  inb_S3x128x256_S1x128x256_1_0_0 : ∀ a, (![1, 0, 0] : Fin 3 → Nat) a + S1x128x256.size a ≤ S3x128x256.size a
  inb_S3x128_S1x128_1_0 : ∀ a, (![1, 0] : Fin 2 → Nat) a + S1x128.size a ≤ S3x128.size a
  inb_S3x2x128_S1x2x128_1_0_0 : ∀ a, (![1, 0, 0] : Fin 3 → Nat) a + S1x2x128.size a ≤ S3x2x128.size a
  inb_S3x2_S1x2_1_0 : ∀ a, (![1, 0] : Fin 2 → Nat) a + S1x2.size a ≤ S3x2.size a
  inb_S3x256x96_S1x256x96_2_0_0 : ∀ a, (![2, 0, 0] : Fin 3 → Nat) a + S1x256x96.size a ≤ S3x256x96.size a
  inb_S3x256_S1x256_2_0 : ∀ a, (![2, 0] : Fin 2 → Nat) a + S1x256.size a ≤ S3x256.size a
  inb_S3x128x256_S1x128x256_2_0_0 : ∀ a, (![2, 0, 0] : Fin 3 → Nat) a + S1x128x256.size a ≤ S3x128x256.size a
  inb_S3x128_S1x128_2_0 : ∀ a, (![2, 0] : Fin 2 → Nat) a + S1x128.size a ≤ S3x128.size a
  inb_S3x2x128_S1x2x128_2_0_0 : ∀ a, (![2, 0, 0] : Fin 3 → Nat) a + S1x2x128.size a ≤ S3x2x128.size a
  inb_S3x2_S1x2_2_0 : ∀ a, (![2, 0] : Fin 2 → Nat) a + S1x2.size a ≤ S3x2.size a
  inb_S2048x2_S2048x2_0_0 : ∀ a, (![0, 0] : Fin 2 → Nat) a + S2048x2.size a ≤ S2048x2.size a
  h_S2048x2 : 0 < S2048x2.numel
  dot_S2048x96_S96x256_S2048x256_1_0_0_1_n_n_wf : DotDims.WF S2048x96 S96x256 S2048x256 [1] [0] [0] [1] [] []
  dot_S2048x256_S256x128_S2048x128_1_0_0_1_n_n_wf : DotDims.WF S2048x256 S256x128 S2048x128 [1] [0] [0] [1] [] []
  dot_S2048x128_S128x2_S2048x2_1_0_0_1_n_n_wf : DotDims.WF S2048x128 S128x2 S2048x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128x32.size a ≤ S2048x2048x32.size a
  hwx0_0 : ∀ i : grid0.Coords, EltTy.bits .f32 = 32 ∨ (Rect.block (s := S2048x2048x32) S256x128x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S2048x1.size a
  hwx0_1 : ∀ i : grid0.Coords, EltTy.bits .i32 = 32 ∨ (Rect.block (s := S2048x1) S256x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x96.size a ≤ S2048x96.size a
  hwx0_2 : ∀ i : grid0.Coords, EltTy.bits .f32 = 32 ∨ (Rect.block (s := S2048x96) S256x96.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2048x96.size a ≤ S2048x96.size a
  hwx1_0 : ∀ i : grid1.Coords, EltTy.bits .f32 = 32 ∨ (Rect.block (s := S2048x96) S2048x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x256x96.size a ≤ S3x256x96.size a
  hwx1_1 : ∀ i : grid1.Coords, EltTy.bits .f32 = 32 ∨ (Rect.block (s := S3x256x96) S3x256x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3x256.size a ≤ S3x256.size a
  hwx1_2 : ∀ i : grid1.Coords, EltTy.bits .f32 = 32 ∨ (Rect.block (s := S3x256) S3x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x256.size a ≤ S3x256.size a
  hwx1_3 : ∀ i : grid1.Coords, EltTy.bits .f32 = 32 ∨ (Rect.block (s := S3x256) S3x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S3x256.size a ≤ S3x256.size a
  hwx1_4 : ∀ i : grid1.Coords, EltTy.bits .f32 = 32 ∨ (Rect.block (s := S3x256) S3x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S3x128x256.size a ≤ S3x128x256.size a
  hwx1_5 : ∀ i : grid1.Coords, EltTy.bits .f32 = 32 ∨ (Rect.block (s := S3x128x256) S3x128x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S3x128.size a ≤ S3x128.size a
  hwx1_6 : ∀ i : grid1.Coords, EltTy.bits .f32 = 32 ∨ (Rect.block (s := S3x128) S3x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S3x128.size a ≤ S3x128.size a
  hwx1_7 : ∀ i : grid1.Coords, EltTy.bits .f32 = 32 ∨ (Rect.block (s := S3x128) S3x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S3x128.size a ≤ S3x128.size a
  hwx1_8 : ∀ i : grid1.Coords, EltTy.bits .f32 = 32 ∨ (Rect.block (s := S3x128) S3x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S3x2x128.size a ≤ S3x2x128.size a
  hwx1_9 : ∀ i : grid1.Coords, EltTy.bits .f32 = 32 ∨ (Rect.block (s := S3x2x128) S3x2x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S3x2.size a ≤ S3x2.size a
  hwx1_10 : ∀ i : grid1.Coords, EltTy.bits .f32 = 32 ∨ (Rect.block (s := S3x2) S3x2.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S2048x2.size a ≤ S2048x2.size a
  hwx1_11 : ∀ i : grid1.Coords, EltTy.bits .f32 = 32 ∨ (Rect.block (s := S2048x2) S2048x2.size (cc1_transform_11 i) (hinb1_11 i)).WholeWords (EltTy.packing .f32)

variable [Facts₀]

def dot_S2048x96_S96x256_S2048x256_1_0_0_1_n_n : DotDims S2048x96 S96x256 S2048x256 where
  lhsContracting := [1]
  rhsContracting := [0]
  lhsNonContracting := [0]
  rhsNonContracting := [1]
  lhsBatch := []
  rhsBatch := []
  wf := dot_S2048x96_S96x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x2_S2048x2_1_0_0_1_n_n : DotDims S2048x128 S128x2 S2048x2 where
  lhsContracting := [1]
  rhsContracting := [0]
  lhsNonContracting := [0]
  rhsNonContracting := [1]
  lhsBatch := []
  rhsBatch := []
  wf := dot_S2048x128_S128x2_S2048x2_1_0_0_1_n_n_wf

abbrev win0_0 : Pipeline.Window sig grid0 :=
  Pipeline.Window.ofSpec (Memref.whole main_arg0) S256x128x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v1) S2048x96.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S3x256x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S3x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S3x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S3x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S3x128x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S3x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S3x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg9) S3x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg10) S3x2x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg11) S3x2.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v2) S2048x2.size cc1_transform_11 reads1_11 true true 1 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S2048x2048x32 : Shape := ⟨3, ![2048, 2048, 32]⟩
abbrev S2048 : Shape := ⟨1, ![2048]⟩
abbrev S3x256x96 : Shape := ⟨3, ![3, 256, 96]⟩
abbrev S3x256 : Shape := ⟨2, ![3, 256]⟩
abbrev S3x128x256 : Shape := ⟨3, ![3, 128, 256]⟩
abbrev S3x128 : Shape := ⟨2, ![3, 128]⟩
abbrev S3x2x128 : Shape := ⟨3, ![3, 2, 128]⟩
abbrev S3x2 : Shape := ⟨2, ![3, 2]⟩
abbrev S1x2048 : Shape := ⟨2, ![1, 2048]⟩
abbrev S2048x1 : Shape := ⟨2, ![2048, 1]⟩
abbrev S2048x2048 : Shape := ⟨2, ![2048, 2048]⟩
abbrev S2048x2048x1 : Shape := ⟨3, ![2048, 2048, 1]⟩
abbrev S_ : Shape := ⟨0, ![]⟩
abbrev S2048x32 : Shape := ⟨2, ![2048, 32]⟩
abbrev S2048x1x32 : Shape := ⟨3, ![2048, 1, 32]⟩
abbrev S2048x2 : Shape := ⟨2, ![2048, 2]⟩
abbrev S2048x96 : Shape := ⟨2, ![2048, 96]⟩
abbrev S3x256x2048 : Shape := ⟨3, ![3, 256, 2048]⟩
abbrev S3x2048x256 : Shape := ⟨3, ![3, 2048, 256]⟩
abbrev S3x1x256 : Shape := ⟨3, ![3, 1, 256]⟩
abbrev S3x2048x128 : Shape := ⟨3, ![3, 2048, 128]⟩
abbrev S3x1x128 : Shape := ⟨3, ![3, 1, 128]⟩
abbrev S3x2048x2 : Shape := ⟨3, ![3, 2048, 2]⟩
abbrev S3x1x2 : Shape := ⟨3, ![3, 1, 2]⟩

abbrev nBuf : Space → Nat
  | .hbm => 148
  | .vmem => 0
  | .smem => 0
  | _ => 0

abbrev hbmTy0_0 (i : Nat) : BufTy := match i % 128 with
  | 0 => ⟨S2048x2048x32, .f32⟩
  | 1 => ⟨S2048, .i32⟩
  | 2 => ⟨S3x256x96, .f32⟩
  | 3 => ⟨S3x256, .f32⟩
  | 4 => ⟨S3x256, .f32⟩
  | 5 => ⟨S3x256, .f32⟩
  | 6 => ⟨S3x128x256, .f32⟩
  | 7 => ⟨S3x128, .f32⟩
  | 8 => ⟨S3x128, .f32⟩
  | 9 => ⟨S3x128, .f32⟩
  | 10 => ⟨S3x2x128, .f32⟩
  | 11 => ⟨S3x2, .f32⟩
  | 12 => ⟨S2048, .i32⟩
  | 13 => ⟨S1x2048, .i32⟩
  | 14 => ⟨S2048x1, .i32⟩
  | 15 => ⟨S2048x2048, .i32⟩
  | 16 => ⟨S2048x2048, .i32⟩
  | 17 => ⟨S2048x2048, .i1⟩
  | 18 => ⟨S2048x2048, .f32⟩
  | 19 => ⟨S2048, .f32⟩
  | 20 => ⟨S2048x1, .f32⟩
  | 21 => ⟨S2048x2048x1, .f32⟩
  | 22 => ⟨S2048x2048x32, .f32⟩
  | 23 => ⟨S2048x2048x32, .f32⟩
  | 24 => ⟨S_, .f32⟩
  | 25 => ⟨S2048x32, .f32⟩
  | 26 => ⟨S2048x32, .f32⟩
  | 27 => ⟨S2048x32, .f32⟩
  | 28 => ⟨S2048x1x32, .f32⟩
  | 29 => ⟨S2048x2048x32, .f32⟩
  | 30 => ⟨S2048x2048x32, .f32⟩
  | 31 => ⟨S2048x2048x1, .f32⟩
  | 32 => ⟨S2048x2048x32, .f32⟩
  | 33 => ⟨S2048x2048x32, .f32⟩
  | 34 => ⟨S2048x2048x32, .f32⟩
  | 35 => ⟨S_, .f32⟩
  | 36 => ⟨S2048x32, .f32⟩
  | 37 => ⟨S_, .f32⟩
  | 38 => ⟨S2048x1, .f32⟩
  | 39 => ⟨S2048x1, .f32⟩
  | 40 => ⟨S2048x32, .f32⟩
  | 41 => ⟨S2048x32, .f32⟩
  | 42 => ⟨S2048x32, .f32⟩
  | 43 => ⟨S2048, .i32⟩
  | 44 => ⟨S_, .i32⟩
  | 45 => ⟨S2048, .i32⟩
  | 46 => ⟨S2048, .i32⟩
  | 47 => ⟨S_, .i32⟩
  | 48 => ⟨S2048, .i32⟩
  | 49 => ⟨S2048, .i1⟩
  | 50 => ⟨S_, .i32⟩
  | 51 => ⟨S2048, .i32⟩
  | 52 => ⟨S2048, .i32⟩
  | 53 => ⟨S2048, .i32⟩
  | 54 => ⟨S_, .i32⟩
  | 55 => ⟨S2048, .i32⟩
  | 56 => ⟨S2048, .i1⟩
  | 57 => ⟨S_, .i32⟩
  | 58 => ⟨S2048, .i32⟩
  | 59 => ⟨S2048, .i32⟩
  | 60 => ⟨S2048, .i32⟩
  | 61 => ⟨S2048x1, .i32⟩
  | 62 => ⟨S2048x1, .i32⟩
  | 63 => ⟨S2048x2, .i32⟩
  | 64 => ⟨S2048x32, .f32⟩
  | 65 => ⟨S2048x96, .f32⟩
  | 66 => ⟨S3x256x2048, .f32⟩
  | 67 => ⟨S3x2048x256, .f32⟩
  | 68 => ⟨S3x1x256, .f32⟩
  | 69 => ⟨S3x2048x256, .f32⟩
  | 70 => ⟨S3x2048x256, .f32⟩
  | 71 => ⟨S_, .f32⟩
  | 72 => ⟨S3x256, .f32⟩
  | 73 => ⟨S3x1x256, .f32⟩
  | 74 => ⟨S_, .f32⟩
  | 75 => ⟨S3x1x256, .f32⟩
  | 76 => ⟨S3x1x256, .f32⟩
  | 77 => ⟨S3x2048x256, .f32⟩
  | 78 => ⟨S3x2048x256, .f32⟩
  | 79 => ⟨S3x2048x256, .f32⟩
  | 80 => ⟨S_, .f32⟩
  | 81 => ⟨S3x256, .f32⟩
  | 82 => ⟨S3x1x256, .f32⟩
  | 83 => ⟨S_, .f32⟩
  | 84 => ⟨S3x1x256, .f32⟩
  | 85 => ⟨S3x1x256, .f32⟩
  | 86 => ⟨S3x2048x256, .f32⟩
  | 87 => ⟨S3x2048x256, .f32⟩
  | 88 => ⟨S_, .f32⟩
  | 89 => ⟨S3x1x256, .f32⟩
  | 90 => ⟨S3x1x256, .f32⟩
  | 91 => ⟨S3x1x256, .f32⟩
  | 92 => ⟨S3x2048x256, .f32⟩
  | 93 => ⟨S3x2048x256, .f32⟩
  | 94 => ⟨S3x1x256, .f32⟩
  | 95 => ⟨S3x2048x256, .f32⟩
  | 96 => ⟨S3x2048x256, .f32⟩
  | 97 => ⟨S3x1x256, .f32⟩
  | 98 => ⟨S3x2048x256, .f32⟩
  | 99 => ⟨S3x2048x256, .f32⟩
  | 100 => ⟨S_, .f32⟩
  | 101 => ⟨S3x2048x256, .f32⟩
  | 102 => ⟨S3x2048x256, .f32⟩
  | 103 => ⟨S3x2048x128, .f32⟩
  | 104 => ⟨S3x1x128, .f32⟩
  | 105 => ⟨S3x2048x128, .f32⟩
  | 106 => ⟨S3x2048x128, .f32⟩
  | 107 => ⟨S_, .f32⟩
  | 108 => ⟨S3x128, .f32⟩
  | 109 => ⟨S3x1x128, .f32⟩
  | 110 => ⟨S_, .f32⟩
  | 111 => ⟨S3x1x128, .f32⟩
  | 112 => ⟨S3x1x128, .f32⟩
  | 113 => ⟨S3x2048x128, .f32⟩
  | 114 => ⟨S3x2048x128, .f32⟩
  | 115 => ⟨S3x2048x128, .f32⟩
  | 116 => ⟨S_, .f32⟩
  | 117 => ⟨S3x128, .f32⟩
  | 118 => ⟨S3x1x128, .f32⟩
  | 119 => ⟨S_, .f32⟩
  | 120 => ⟨S3x1x128, .f32⟩
  | 121 => ⟨S3x1x128, .f32⟩
  | 122 => ⟨S3x2048x128, .f32⟩
  | 123 => ⟨S3x2048x128, .f32⟩
  | 124 => ⟨S_, .f32⟩
  | 125 => ⟨S3x1x128, .f32⟩
  | 126 => ⟨S3x1x128, .f32⟩
  | 127 => ⟨S3x1x128, .f32⟩
  | _ => ⟨S2048x2048x32, .f32⟩

abbrev hbmTy0_1 (i : Nat) : BufTy := match i % 128 with
  | 0 => ⟨S3x2048x128, .f32⟩
  | 1 => ⟨S3x2048x128, .f32⟩
  | 2 => ⟨S3x1x128, .f32⟩
  | 3 => ⟨S3x2048x128, .f32⟩
  | 4 => ⟨S3x2048x128, .f32⟩
  | 5 => ⟨S3x1x128, .f32⟩
  | 6 => ⟨S3x2048x128, .f32⟩
  | 7 => ⟨S3x2048x128, .f32⟩
  | 8 => ⟨S_, .f32⟩
  | 9 => ⟨S3x2048x128, .f32⟩
  | 10 => ⟨S3x2048x128, .f32⟩
  | 11 => ⟨S3x2048x2, .f32⟩
  | 12 => ⟨S3x1x2, .f32⟩
  | 13 => ⟨S3x2048x2, .f32⟩
  | 14 => ⟨S3x2048x2, .f32⟩
  | 15 => ⟨S_, .f32⟩
  | 16 => ⟨S2048x2, .f32⟩
  | 17 => ⟨S_, .f32⟩
  | 18 => ⟨S2048x2, .f32⟩
  | 19 => ⟨S2048x2, .f32⟩
  | _ => ⟨S2048x2048x32, .f32⟩

abbrev hbmTy (i : Nat) : BufTy := match i / 128 with
  | 0 => hbmTy0_0 i
  | 1 => hbmTy0_1 i
  | _ => ⟨S2048x2048x32, .f32⟩

abbrev bufTy : (tb : Table) → Fin (tcTables nBuf tb) → BufTy
  | .hbm, ⟨i, _⟩ => hbmTy i
  | _, _ => ⟨S2048x2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_0 : Ref sig .tc := ⟨.hbm, 35, rfl⟩
abbrev main_v22 : Ref sig .tc := ⟨.hbm, 36, rfl⟩
abbrev main_cst_1 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c : Ref sig .tc := ⟨.hbm, 44, rfl⟩
abbrev main_v29 : Ref sig .tc := ⟨.hbm, 45, rfl⟩
abbrev main_v30 : Ref sig .tc := ⟨.hbm, 46, rfl⟩
abbrev main_c_2 : Ref sig .tc := ⟨.hbm, 47, rfl⟩
abbrev main_v31 : Ref sig .tc := ⟨.hbm, 48, rfl⟩
abbrev main_v32 : Ref sig .tc := ⟨.hbm, 49, rfl⟩
abbrev main_c_3 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_4 : Ref sig .tc := ⟨.hbm, 54, rfl⟩
abbrev main_v36 : Ref sig .tc := ⟨.hbm, 55, rfl⟩
abbrev main_v37 : Ref sig .tc := ⟨.hbm, 56, rfl⟩
abbrev main_c_5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_6 : Ref sig .tc := ⟨.hbm, 71, rfl⟩
abbrev main_v51 : Ref sig .tc := ⟨.hbm, 72, rfl⟩
abbrev main_v52 : Ref sig .tc := ⟨.hbm, 73, rfl⟩
abbrev main_cst_7 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_8 : Ref sig .tc := ⟨.hbm, 80, rfl⟩
abbrev main_v58 : Ref sig .tc := ⟨.hbm, 81, rfl⟩
abbrev main_v59 : Ref sig .tc := ⟨.hbm, 82, rfl⟩
abbrev main_cst_9 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_10 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_call0_cst : Ref sig .tc := ⟨.hbm, 100, rfl⟩
abbrev main_call0_v0 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_11 : Ref sig .tc := ⟨.hbm, 107, rfl⟩
abbrev main_v80 : Ref sig .tc := ⟨.hbm, 108, rfl⟩
abbrev main_v81 : Ref sig .tc := ⟨.hbm, 109, rfl⟩
abbrev main_cst_12 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_13 : Ref sig .tc := ⟨.hbm, 116, rfl⟩
abbrev main_v87 : Ref sig .tc := ⟨.hbm, 117, rfl⟩
abbrev main_v88 : Ref sig .tc := ⟨.hbm, 118, rfl⟩
abbrev main_cst_14 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_15 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_call1_cst : Ref sig .tc := ⟨.hbm, 136, rfl⟩
abbrev main_call1_v0 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_cst_16 : Ref sig .tc := ⟨.hbm, 143, rfl⟩
abbrev main_v109 : Ref sig .tc := ⟨.hbm, 144, rfl⟩
abbrev main_cst_17 : Ref sig .tc := ⟨.hbm, 145, rfl⟩
abbrev main_v110 : Ref sig .tc := ⟨.hbm, 146, rfl⟩
abbrev main_v111 : Ref sig .tc := ⟨.hbm, 147, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S2048_S2048x1_0 : S2048.BroadcastsInDim S2048x1 (![0] : Fin 1 → Fin S2048x1.rank)
  bcast_S1x2048_S2048x2048_0_1 : S1x2048.BroadcastsInDim S2048x2048 (![0, 1] : Fin 2 → Fin S2048x2048.rank)
  bcast_S2048x1_S2048x2048_0_1 : S2048x1.BroadcastsInDim S2048x2048 (![0, 1] : Fin 2 → Fin S2048x2048.rank)
  bcast_S2048x2048_S2048x2048x1_0_1 : S2048x2048.BroadcastsInDim S2048x2048x1 (![0, 1] : Fin 2 → Fin S2048x2048x1.rank)
  bcast_S2048x2048x1_S2048x2048x32_0_1_2 : S2048x2048x1.BroadcastsInDim S2048x2048x32 (![0, 1, 2] : Fin 3 → Fin S2048x2048x32.rank)
  reducesTo_S2048x2048x32_S2048x32_d1 : S2048x2048x32.ReducesTo [1] S2048x32
  h_S_ : 0 < S_.numel
  bcast_S2048x1_S2048x32_0_1 : S2048x1.BroadcastsInDim S2048x32 (![0, 1] : Fin 2 → Fin S2048x32.rank)
  bcast_S2048x32_S2048x1x32_0_2 : S2048x32.BroadcastsInDim S2048x1x32 (![0, 2] : Fin 2 → Fin S2048x1x32.rank)
  bcast_S2048x1x32_S2048x2048x32_0_1_2 : S2048x1x32.BroadcastsInDim S2048x2048x32 (![0, 1, 2] : Fin 3 → Fin S2048x2048x32.rank)
  bcast_S_S2048x1 : S_.BroadcastsInDim S2048x1 (![] : Fin 0 → Fin S2048x1.rank)
  bcast_S_S2048 : S_.BroadcastsInDim S2048 (![] : Fin 0 → Fin S2048.rank)
  concatenates_S2048x1_S2048x1_S2048x2_d1 : Shape.Concatenates [S2048x1, S2048x1] S2048x2 1
  concatenates_S2048x32_S2048x32_S2048x32_S2048x96_d1 : Shape.Concatenates [S2048x32, S2048x32, S2048x32] S2048x96 1
  transposes_S3x256x2048_S3x2048x256_0_2_1 : S3x256x2048.Transposes [0, 2, 1] S3x2048x256
  bcast_S3x256_S3x1x256_0_2 : S3x256.BroadcastsInDim S3x1x256 (![0, 2] : Fin 2 → Fin S3x1x256.rank)
  bcast_S3x1x256_S3x2048x256_0_1_2 : S3x1x256.BroadcastsInDim S3x2048x256 (![0, 1, 2] : Fin 3 → Fin S3x2048x256.rank)
  reducesTo_S3x2048x256_S3x256_d1 : S3x2048x256.ReducesTo [1] S3x256
  bcast_S_S3x1x256 : S_.BroadcastsInDim S3x1x256 (![] : Fin 0 → Fin S3x1x256.rank)
  bcast_S_S3x2048x256 : S_.BroadcastsInDim S3x2048x256 (![] : Fin 0 → Fin S3x2048x256.rank)
  bcast_S3x128_S3x1x128_0_2 : S3x128.BroadcastsInDim S3x1x128 (![0, 2] : Fin 2 → Fin S3x1x128.rank)
  bcast_S3x1x128_S3x2048x128_0_1_2 : S3x1x128.BroadcastsInDim S3x2048x128 (![0, 1, 2] : Fin 3 → Fin S3x2048x128.rank)
  reducesTo_S3x2048x128_S3x128_d1 : S3x2048x128.ReducesTo [1] S3x128
  bcast_S_S3x1x128 : S_.BroadcastsInDim S3x1x128 (![] : Fin 0 → Fin S3x1x128.rank)
  bcast_S_S3x2048x128 : S_.BroadcastsInDim S3x2048x128 (![] : Fin 0 → Fin S3x2048x128.rank)
  bcast_S3x2_S3x1x2_0_2 : S3x2.BroadcastsInDim S3x1x2 (![0, 2] : Fin 2 → Fin S3x1x2.rank)
  bcast_S3x1x2_S3x2048x2_0_1_2 : S3x1x2.BroadcastsInDim S3x2048x2 (![0, 1, 2] : Fin 3 → Fin S3x2048x2.rank)
  reducesTo_S3x2048x2_S2048x2_d0 : S3x2048x2.ReducesTo [0] S2048x2
  bcast_S_S2048x2 : S_.BroadcastsInDim S2048x2 (![] : Fin 0 → Fin S2048x2.rank)
  gather_S2048x2048x32_S2048x2_S2048x32_1_01_n_n_01_1_1132_wf : GatherDims.WF S2048x2048x32 S2048x2 S2048x32 [1] [0, 1] [] [0, 1] [] 1 ![1, 1, 32]
  dot_S3x256x96_S2048x96_S3x256x2048_2_1_01_0_n_n_wf : DotDims.WF S3x256x96 S2048x96 S3x256x2048 [2] [1] [0, 1] [0] [] []
  dot_S3x2048x256_S3x128x256_S3x2048x128_2_2_1_1_0_0_wf : DotDims.WF S3x2048x256 S3x128x256 S3x2048x128 [2] [2] [1] [1] [0] [0]
  dot_S3x2048x128_S3x2x128_S3x2048x2_2_2_1_1_0_0_wf : DotDims.WF S3x2048x128 S3x2x128 S3x2048x2 [2] [2] [1] [1] [0] [0]

variable [Facts₀]

def gather_S2048x2048x32_S2048x2_S2048x32_1_01_n_n_01_1_1132 : GatherDims S2048x2048x32 S2048x2 S2048x32 where
  offsetDims := [1]
  collapsedSliceDims := [0, 1]
  operandBatchingDims := []
  startIndicesBatchingDims := []
  startIndexMap := [0, 1]
  indexVectorDim := 1
  sliceSizes := ![1, 1, 32]
  wf := gather_S2048x2048x32_S2048x2_S2048x32_1_01_n_n_01_1_1132_wf
def dot_S3x256x96_S2048x96_S3x256x2048_2_1_01_0_n_n : DotDims S3x256x96 S2048x96 S3x256x2048 where
  lhsContracting := [2]
  rhsContracting := [1]
  lhsNonContracting := [0, 1]
  rhsNonContracting := [0]
  lhsBatch := []
  rhsBatch := []
  wf := dot_S3x256x96_S2048x96_S3x256x2048_2_1_01_0_n_n_wf
def dot_S3x2048x256_S3x128x256_S3x2048x128_2_2_1_1_0_0 : DotDims S3x2048x256 S3x128x256 S3x2048x128 where
  lhsContracting := [2]
  rhsContracting := [2]
  lhsNonContracting := [1]
  rhsNonContracting := [1]
  lhsBatch := [0]
  rhsBatch := [0]
  wf := dot_S3x2048x256_S3x128x256_S3x2048x128_2_2_1_1_0_0_wf
def dot_S3x2048x128_S3x2x128_S3x2048x2_2_2_1_1_0_0 : DotDims S3x2048x128 S3x2x128 S3x2048x2 where
  lhsContracting := [2]
  rhsContracting := [2]
  lhsNonContracting := [1]
  rhsNonContracting := [1]
  lhsBatch := [0]
  rhsBatch := [0]
  wf := dot_S3x2048x128_S3x2x128_S3x2048x2_2_2_1_1_0_0_wf

class Facts : Prop extends Facts₀ where

variable [Facts]
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨3, ![2048, 2048, 32]⟩
abbrev SL : Shape := ⟨1, ![2048]⟩
abbrev SF : Shape := ⟨2, ![2048, 96]⟩
abbrev SW1 : Shape := ⟨3, ![3, 256, 96]⟩
abbrev SV1 : Shape := ⟨2, ![3, 256]⟩
abbrev SW2 : Shape := ⟨3, ![3, 128, 256]⟩
abbrev SV2 : Shape := ⟨2, ![3, 128]⟩
abbrev SW3 : Shape := ⟨3, ![3, 2, 128]⟩
abbrev SV3 : Shape := ⟨2, ![3, 2]⟩
abbrev SO : Shape := ⟨2, ![2048, 2]⟩

def cone : EReal := Ideal.ofBits .f32 0x3F800000#32
def c2048 : EReal := Ideal.ofBits .f32 0x45000000#32
def ceps : EReal := Ideal.ofBits .f32 0x3727C5AC#32
def c3 : EReal := Ideal.ofBits .f32 0x40400000#32

def ind (p : Prop) [Decidable p] : EReal := if p then 1 else 0

def cnt (len : SL.Idx → BitVec 32) (b : Fin 2048) : EReal := (((len (ix1 b)).toInt : ℝ) : EReal)

def msk (len : SL.Idx → BitVec 32) (b t : Fin 2048) : EReal := ind ((t.val : ℤ) < (len (ix1 b)).toInt)

def lastMsk (len : SL.Idx → BitVec 32) (b t : Fin 2048) : EReal := ind ((t.val : ℤ) = (len (ix1 b)).toInt - 1)

def sum1 (x : SX.Idx → EReal) (len : SL.Idx → BitVec 32) (b : Fin 2048) (d : Fin 32) : EReal :=
  ∑ t : Fin 2048, x (ix3 b t d) * msk len b t

def sum2 (x : SX.Idx → EReal) (len : SL.Idx → BitVec 32) (b : Fin 2048) (d : Fin 32) : EReal :=
  ∑ t : Fin 2048, (x (ix3 b t d) * x (ix3 b t d)) * msk len b t

def mean (x : SX.Idx → EReal) (len : SL.Idx → BitVec 32) (b : Fin 2048) (d : Fin 32) : EReal :=
  Ideal.div (sum1 x len b d) (cnt len b)

/-- One pass: (Σx² − (Σx)²/n)/(n − 1), clamped at zero before the root. -/
def stdK (x : SX.Idx → EReal) (len : SL.Idx → BitVec 32) (b : Fin 2048) (d : Fin 32) : EReal :=
  Ideal.sqrt (max (Ideal.div (sum2 x len b d - Ideal.div (sum1 x len b d * sum1 x len b d) (cnt len b)) (cnt len b - cone)) 0)

def lastK (x : SX.Idx → EReal) (len : SL.Idx → BitVec 32) (b : Fin 2048) (d : Fin 32) : EReal :=
  ∑ t : Fin 2048, x (ix3 b t d) * lastMsk len b t

/-- Two passes: Σ((x − mean)·mask)²/(n − 1), then the root. -/
def stdR (x : SX.Idx → EReal) (len : SL.Idx → BitVec 32) (b : Fin 2048) (d : Fin 32) : EReal :=
  Ideal.sqrt (Ideal.div (∑ t : Fin 2048, ((x (ix3 b t d) - mean x len b d) * msk len b t) * ((x (ix3 b t d) - mean x len b d) * msk len b t)) (cnt len b - cone))

def lastIdx (len : SL.Idx → BitVec 32) (b : Fin 2048) : Fin 2048 :=
  ⟨((len (ix1 b)).toInt - 1).toNat % 2048, Nat.mod_lt _ (by decide)⟩

def lastR (x : SX.Idx → EReal) (len : SL.Idx → BitVec 32) (b : Fin 2048) (d : Fin 32) : EReal :=
  x (ix3 b (lastIdx len b) d)

def row3 (a s l : Fin 32 → EReal) (q : Fin 96) : EReal :=
  if h : q.val < 32 then a ⟨q.val, h⟩
  else if h2 : q.val < 64 then s ⟨q.val - 32, by omega⟩
  else l ⟨q.val - 64, by omega⟩

def featsKc (x : SX.Idx → EReal) (len : SL.Idx → BitVec 32) (b : Fin 2048) (q : Fin 96) : EReal :=
  row3 (mean x len b) (stdK x len b) (lastK x len b) q

def featsRc (x : SX.Idx → EReal) (len : SL.Idx → BitVec 32) (b : Fin 2048) (q : Fin 96) : EReal :=
  row3 (mean x len b) (stdR x len b) (lastR x len b) q

def featsK (x : SX.Idx → EReal) (len : SL.Idx → BitVec 32) : SF.Idx → EReal :=
  fun j => featsKc x len (j 0) (j 1)

def featsR (x : SX.Idx → EReal) (len : SL.Idx → BitVec 32) : SF.Idx → EReal :=
  fun j => featsRc x len (j 0) (j 1)

def mean2048 (z : Fin 2048 → EReal) : EReal := Ideal.div (∑ b : Fin 2048, z b) c2048

/-- A column over the 2048 rows: centred, scaled by the reciprocal root of the biased variance plus ε, then affine. -/
def bn (z : Fin 2048 → EReal) (g be : EReal) (b : Fin 2048) : EReal :=
  ((z b - mean2048 z) * Ideal.rsqrt (mean2048 (fun b' => (z b' - mean2048 z) * (z b' - mean2048 z)) + ceps)) * g + be

def h1 (f : SF.Idx → EReal) (W1 : SW1.Idx → EReal) (b1 : SV1.Idx → EReal) (m : Fin 3) (b : Fin 2048) (h : Fin 256) : EReal :=
  (∑ k : Fin 96, f (ix2 b k) * W1 (ix3 m h k)) + b1 (ix2 m h)

def n1 (f : SF.Idx → EReal) (W1 : SW1.Idx → EReal) (b1 g1 be1 : SV1.Idx → EReal) (m : Fin 3) (b : Fin 2048) (h : Fin 256) : EReal :=
  max (bn (fun b' => h1 f W1 b1 m b' h) (g1 (ix2 m h)) (be1 (ix2 m h)) b) 0

def h2 (f : SF.Idx → EReal) (W1 : SW1.Idx → EReal) (b1 g1 be1 : SV1.Idx → EReal) (W2 : SW2.Idx → EReal) (b2 : SV2.Idx → EReal)
    (m : Fin 3) (b : Fin 2048) (k : Fin 128) : EReal :=
  (∑ h : Fin 256, n1 f W1 b1 g1 be1 m b h * W2 (ix3 m k h)) + b2 (ix2 m k)

def n2 (f : SF.Idx → EReal) (W1 : SW1.Idx → EReal) (b1 g1 be1 : SV1.Idx → EReal) (W2 : SW2.Idx → EReal) (b2 g2 be2 : SV2.Idx → EReal)
    (m : Fin 3) (b : Fin 2048) (k : Fin 128) : EReal :=
  max (bn (fun b' => h2 f W1 b1 g1 be1 W2 b2 m b' k) (g2 (ix2 m k)) (be2 (ix2 m k)) b) 0

def o3 (f : SF.Idx → EReal) (W1 : SW1.Idx → EReal) (b1 g1 be1 : SV1.Idx → EReal) (W2 : SW2.Idx → EReal) (b2 g2 be2 : SV2.Idx → EReal)
    (W3 : SW3.Idx → EReal) (b3 : SV3.Idx → EReal) (m : Fin 3) (b : Fin 2048) (j : Fin 2) : EReal :=
  (∑ k : Fin 128, n2 f W1 b1 g1 be1 W2 b2 g2 be2 m b k * W3 (ix3 m j k)) + b3 (ix2 m j)

def mlpc (f : SF.Idx → EReal) (W1 : SW1.Idx → EReal) (b1 g1 be1 : SV1.Idx → EReal) (W2 : SW2.Idx → EReal) (b2 g2 be2 : SV2.Idx → EReal)
    (W3 : SW3.Idx → EReal) (b3 : SV3.Idx → EReal) (b : Fin 2048) (j : Fin 2) : EReal :=
  Ideal.div ((o3 f W1 b1 g1 be1 W2 b2 g2 be2 W3 b3 0 b j + o3 f W1 b1 g1 be1 W2 b2 g2 be2 W3 b3 1 b j)
    + o3 f W1 b1 g1 be1 W2 b2 g2 be2 W3 b3 2 b j) c3

def mlp (f : SF.Idx → EReal) (W1 : SW1.Idx → EReal) (b1 g1 be1 : SV1.Idx → EReal) (W2 : SW2.Idx → EReal) (b2 g2 be2 : SV2.Idx → EReal)
    (W3 : SW3.Idx → EReal) (b3 : SV3.Idx → EReal) : SO.Idx → EReal :=
  fun i => mlpc f W1 b1 g1 be1 W2 b2 g2 be2 W3 b3 (i 0) (i 1)

end Cert.Spec

end
-- ==== Proof.SpecLaw.lean ====
import proofs.«401628_j66357244723446_2_alg».proof.Proof.Spec
import Idealize.ShloMosaic.Lib.IdealHost

noncomputable section

open scoped BigOperators

namespace Cert.Spec

open Idealize.ShloMosaic Idealize.ShloMosaic.ValueIdx

theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- The indicator of the first n steps sums to n. -/
theorem sum_msk (n : ℤ) (h0 : 0 ≤ n) (h1 : n ≤ 2048) :
    ∑ t : Fin 2048, (if (t.val : ℤ) < n then (1 : ℝ) else 0) = (n : ℝ) := by
  rw [Fin.sum_univ_eq_sum_range (fun i => if (i : ℤ) < n then (1 : ℝ) else 0) 2048, Finset.sum_boole]
  have h : (Finset.range 2048).filter (fun i : ℕ => (i : ℤ) < n) = Finset.range n.toNat := by
    ext i; simp only [Finset.mem_filter, Finset.mem_range]; omega
  rw [h, Finset.card_range, ← Int.cast_natCast, Int.toNat_of_nonneg h0]

/-- For an idempotent weight m of total N ≠ 0 and S = Σ r·m: Σ ((r − S/N)·m)² = Σ r²·m − S²/N. -/
theorem real_law {ι : Type*} (s : Finset ι) (r m : ι → ℝ) (N : ℝ) (hN : N ≠ 0) (hm : ∀ t, m t * m t = m t)
    (hs : ∑ t ∈ s, m t = N) :
    ∑ t ∈ s, ((r t - (∑ u ∈ s, r u * m u) * (1 / N)) * m t) * ((r t - (∑ u ∈ s, r u * m u) * (1 / N)) * m t)
      = (∑ t ∈ s, (r t * r t) * m t) - (∑ t ∈ s, r t * m t) * (∑ t ∈ s, r t * m t) * (1 / N) := by
  set S := ∑ u ∈ s, r u * m u with hSdef
  have h1 : ∀ t, ((r t - S * (1 / N)) * m t) * ((r t - S * (1 / N)) * m t)
      = (r t * r t) * m t - (2 * (S * (1 / N))) * (r t * m t) + (S * (1 / N)) * (S * (1 / N)) * m t := by
    intro t; linear_combination ((r t - S * (1 / N)) * (r t - S * (1 / N))) * hm t
  simp only [h1, Finset.sum_add_distrib, Finset.sum_sub_distrib, ← Finset.mul_sum, hs, ← hSdef]
  field_simp
  ring

/-- Both quotients are the coercion of one real number, a sum of squares over N − 1 > 0, so the clamp at zero is idle. -/
theorem stat_law (r m : Fin 2048 → ℝ) (N : ℝ) (hN : N ≠ 0) (hN1 : 0 < N - 1) (hm : ∀ t, m t * m t = m t)
    (hs : ∑ t, m t = N) :
    max (Ideal.div ((∑ t, ((r t : EReal) * (r t : EReal)) * (m t : EReal))
          - Ideal.div ((∑ t, (r t : EReal) * (m t : EReal)) * (∑ t, (r t : EReal) * (m t : EReal))) (N : EReal))
        ((N : EReal) - 1)) 0
      = Ideal.div (∑ t, (((r t : EReal) - Ideal.div (∑ u, (r u : EReal) * (m u : EReal)) (N : EReal)) * (m t : EReal))
          * (((r t : EReal) - Ideal.div (∑ u, (r u : EReal) * (m u : EReal)) (N : EReal)) * (m t : EReal)))
        ((N : EReal) - 1) := by
  rw [show (N : EReal) - 1 = ((N - 1 : ℝ) : EReal) by rw [EReal.coe_sub, EReal.coe_one]]
  simp only [Ideal.div_coe hN, Ideal.div_coe (ne_of_gt hN1), ← EReal.coe_mul, ← EReal.coe_sub, ← coe_sum]
  rw [← real_law Finset.univ r m N hN hm hs]
  exact max_eq_left (EReal.coe_nonneg.mpr
    (mul_nonneg (Finset.sum_nonneg fun t _ => mul_self_nonneg _) (le_of_lt (one_div_pos.mpr hN1))))

theorem stdK_eq_stdR (x : SX.Idx → EReal) (len : SL.Idx → BitVec 32) (hx : ∀ i, x i ≠ ⊤ ∧ x i ≠ ⊥)
    (b : Fin 2048) (hb : 2 ≤ (len (ix1 b)).toInt ∧ (len (ix1 b)).toInt ≤ 2048) (d : Fin 32) :
    stdK x len b d = stdR x len b d := by
  obtain ⟨hlo, hhi⟩ := hb
  obtain ⟨r, hr⟩ : ∃ r : Fin 2048 → ℝ, ∀ t, x (ix3 b t d) = (r t : EReal) :=
    ⟨fun t => (x (ix3 b t d)).toReal, fun t => (EReal.coe_toReal (hx _).1 (hx _).2).symm⟩
  have hmsk : ∀ t, msk len b t = (((if (t.val : ℤ) < (len (ix1 b)).toInt then 1 else 0 : ℝ)) : EReal) :=
    fun t => (apply_ite Real.toEReal _ 1 0).symm
  have h2 : (2 : ℝ) ≤ (((len (ix1 b)).toInt : ℤ) : ℝ) := by exact_mod_cast hlo
  unfold stdK stdR mean sum1 sum2 cnt
  simp only [hr, hmsk, cone, Ideal.ofBits_one_f32]
  exact congrArg Ideal.sqrt (stat_law _ _ _ (by linarith) (by linarith)
    (fun t => by beta_reduce; split_ifs <;> norm_num) (sum_msk _ (by omega) hhi))

theorem lastK_eq_lastR (x : SX.Idx → EReal) (len : SL.Idx → BitVec 32)
    (b : Fin 2048) (hb : 2 ≤ (len (ix1 b)).toInt ∧ (len (ix1 b)).toInt ≤ 2048) (d : Fin 32) :
    lastK x len b d = lastR x len b d := by
  obtain ⟨hlo, hhi⟩ := hb
  have hval : ((lastIdx len b).val : ℤ) = (len (ix1 b)).toInt - 1 := by
    show ((((len (ix1 b)).toInt - 1).toNat % 2048 : ℕ) : ℤ) = _
    omega
  unfold lastK lastR
  rw [Finset.sum_eq_single (lastIdx len b)]
  · rw [lastMsk, ind, if_pos hval, mul_one]
  · intro t _ hne
    rw [lastMsk, ind, if_neg fun h => hne (Fin.ext (by omega)), mul_zero]
  · intro h; exact absurd (Finset.mem_univ _) h

theorem featsK_eq_featsR (x : SX.Idx → EReal) (len : SL.Idx → BitVec 32)
    (hx : ∀ i, x i ≠ ⊤ ∧ x i ≠ ⊥)
    (hlen : ∀ b : Fin 2048, 2 ≤ (len (ix1 b)).toInt ∧ (len (ix1 b)).toInt ≤ 2048) :
    featsK x len = featsR x len := by
  funext j
  have hs : stdK x len (j 0) = stdR x len (j 0) := funext fun d => stdK_eq_stdR x len hx (j 0) (hlen (j 0)) d
  have hl : lastK x len (j 0) = lastR x len (j 0) := funext fun d => lastK_eq_lastR x len (j 0) (hlen (j 0)) d
  simp only [featsK, featsR, featsKc, featsRc, hs, hl]

end Cert.Spec

end
-- ==== Proof.PreDecode.lean ====
import proofs.«401628_j66357244723446_2_alg».proof.Pre_finite_inputs
import proofs.«401628_j66357244723446_2_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreDecode

open Idealize.ShloMosaic Idealize.ShloMosaic.ValueIdx

/-- If max x (−x) is strictly below +∞ then x is neither infinity, since max ⊤ (−⊤) = max ⊥ (−⊥) = ⊤. -/
theorem finite_of_abs_lt (x : EReal)
    (h : Ideal.cmp .olt (max x (-x)) (Ideal.ofBits .f32 0x7F800000#32) = 1#1) : x ≠ ⊤ ∧ x ≠ ⊥ := by
  rw [show Ideal.ofBits .f32 0x7F800000#32 = ⊤ by simp [Ideal.ofBits, Ideal.ieee]] at h
  change BitVec.ofBool (decide (max x (-x) < ⊤)) = 1#1 at h
  rw [StableHlo.Predicate.ofBool_eq_one_iff, decide_eq_true_eq, max_lt_iff] at h
  refine ⟨ne_of_lt h.1, ?_⟩
  rintro rfl
  simp at h

theorem andi_apply {s : Shape} {w : Nat} (x y : IVec s w) (i : s.Idx) : andi x y i = IntOp.andi (x i) (y i) := rfl

open Cert.Pre_finite_inputs in
/-- A conjunction of bits is 1 only if each is, and an all-reduction by "and" is 1 only if every operand bit is. -/
theorem of_pre [Cert.Pre_finite_inputs.Facts]
    (x0 : FVec Ideal S2048x2048x32 .f32) (x1 : IVec S2048 32) (x2 : FVec Ideal S3x256x96 .f32) (x3 x4 x5 : FVec Ideal S3x256 .f32) (x6 : FVec Ideal S3x128x256 .f32)
    (x7 x8 x9 : FVec Ideal S3x128 .f32) (x10 : FVec Ideal S3x2x128 .f32) (x11 : FVec Ideal S3x2 .f32)
    (h : Cert.Pre_finite_inputs.fn (F := Ideal) x0 x1 x2 x3 x4 x5 x6 x7 x8 x9 x10 x11 = fun _ => 1#1) :
    (∀ i, x0 i ≠ ⊤ ∧ x0 i ≠ ⊥) ∧ (∀ b : Fin 2048, 2 ≤ (x1 (ix1 b)).toInt ∧ (x1 (ix1 b)).toInt ≤ 2048) := by
  haveI : Subsingleton S_.Idx := ⟨fun a b => funext fun d => d.elim0⟩
  have e := congrFun h ix0
  dsimp only [fn, fn_part1, fn_part2, fn_part3] at e
  simp only [andi_apply, IntOp.andi_eq_one] at e
  obtain ⟨⟨⟨⟨⟨⟨⟨⟨⟨⟨⟨⟨h0, -⟩, -⟩, -⟩, -⟩, -⟩, -⟩, -⟩, -⟩, -⟩, -⟩, hge⟩, hle⟩ := e
  exact ⟨fun i => finite_of_abs_lt (x0 i) (Host.reduce_andi_all _ _ _ _ _ h0 i), fun b =>
    ⟨IntOp.cmpi_sge.1 (Host.reduce_andi_all _ _ _ _ _ hge (ix1 b)), IntOp.cmpi_sle.1 (Host.reduce_andi_all _ _ _ _ _ hle (ix1 b))⟩⟩

end Cert.PreDecode

end
-- ==== Proof.Ref.Feats.lean ====
import proofs.«401628_j66357244723446_2_alg».proof.Proof.Gen.ReferenceIdeal.Read
import proofs.«401628_j66357244723446_2_alg».proof.Proof.Spec
import Idealize.ShloMosaic.Lib.WordArith

noncomputable section

open scoped BigOperators

namespace Cert.RefVal

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

namespace Feats

/-- The signed comparison of a step number with a length, as a float, is the indicator of "the step counts". -/
theorem mask_word (t : Fin 2048) (l : BitVec 32) :
    (((IntOp.cmpi .slt (BitVec.ofNat 32 t.val) l).toNat : ℝ) : EReal) = Cert.Spec.ind ((t.val : ℤ) < l.toInt) := by
  show (((BitVec.ofBool (decide ((BitVec.ofNat 32 t.val).toInt < l.toInt))).toNat : ℝ) : EReal) = _
  rw [WordArith.toInt_ofNat_small t.val (by have := t.isLt; omega), Cert.Spec.ind]
  by_cases h : (t.val : ℤ) < l.toInt <;> simp [h]

/-- A word that is not negative is left alone by the wrap-round of negative indices. -/
theorem wrap (w : BitVec 32) (h : 0 ≤ w.toInt) :
    Scalar.select (IntOp.cmpi .slt w 0#32) (IntOp.addi w 2048#32) w = w := by
  unfold Scalar.select
  rw [if_neg]
  intro hc
  have := BitVec.slt_iff_toInt_lt.1 ((WordArith.ofBool_eq_one_iff _).1 hc)
  rw [show (0#32 : BitVec 32).toInt = 0 by decide] at this
  omega

theorem toInt_pred (l : BitVec 32) (h : 2 ≤ l.toInt ∧ l.toInt ≤ 2048) : (IntOp.subi l 1#32).toInt = l.toInt - 1 := by
  have h1 : (1#32 : BitVec 32).toInt = 1 := by decide
  show (l - 1#32).toInt = _
  rw [WordArith.toInt_sub_of_bounds l 1#32 (by omega) (by omega), h1]

/-- On an operand axis that takes a start index and keeps no offset, a gather reads at that start index when it is in range. -/
theorem operandIdx_start {s si t : Shape} (g : GatherDims s si t) {w : Nat} (j : t.Idx) (idx : IVec si w) (a : Fin s.rank)
    (i : si.Idx) (p : ℕ) (ha : a ∈ g.startIndexMap) (hb : a ∉ g.operandBatchingDims) (hk : a ∉ g.sKept)
    (hi : ∀ e, (g.siIdx j ⟨g.startIndexMap.idxOf a, List.idxOf_lt_length_iff.2 ha⟩ e).val = (i e).val)
    (hp : (idx i).toInt = p) (hle : p ≤ s.size a - g.sliceSizes a) : (g.operandIdx j idx a).val = p := by
  obtain rfl : g.siIdx j ⟨g.startIndexMap.idxOf a, List.idxOf_lt_length_iff.2 ha⟩ = i := funext fun e => Fin.ext (hi e)
  show g.start j idx a + g.batchCoord j a + g.offCoord j a = _
  rw [g.batchCoord_eq_zero j a hb, g.offCoord_eq_zero j a hk, GatherDims.start, dif_pos ha, hp]
  omega

/-- The gather of one row per batch row: the operand at the row's two start indices, both in range, and feature d. -/
theorem gather_rows_apply {α : Type} (x : S2048x2048x32.Idx → α) (idx : IVec S2048x2 32) (b r t : Fin 2048) (d : Fin 32)
    (hr : (idx (ix2 b (0 : Fin 2))).toInt = r.val) (ht : (idx (ix2 b (1 : Fin 2))).toInt = t.val) :
    Host.gather gather_S2048x2048x32_S2048x2_S2048x32_1_01_n_n_01_1_1132 x idx (ix2 b d) = x (ix3 r t d) := by
  refine congrArg x (funext fun a => Fin.ext ?_)
  match a with
  | ⟨0, _⟩ =>
    exact operandIdx_start gather_S2048x2048x32_S2048x2_S2048x32_1_01_n_n_01_1_1132 (ix2 b d) idx 0 (ix2 b (0 : Fin 2)) r.val (by decide) (by decide) (by decide)
      (fun e => by match e with | ⟨0, _⟩ => rfl | ⟨1, _⟩ => rfl) hr (Nat.le_of_lt_succ r.isLt)
  | ⟨1, _⟩ =>
    exact operandIdx_start gather_S2048x2048x32_S2048x2_S2048x32_1_01_n_n_01_1_1132 (ix2 b d) idx 1 (ix2 b (1 : Fin 2)) t.val (by decide) (by decide) (by decide)
      (fun e => by match e with | ⟨0, _⟩ => rfl | ⟨1, _⟩ => rfl) ht (Nat.le_of_lt_succ t.isLt)
  | ⟨2, _⟩ =>
    show gather_S2048x2048x32_S2048x2_S2048x32_1_01_n_n_01_1_1132.start (ix2 b d) idx 2 + gather_S2048x2048x32_S2048x2_S2048x32_1_01_n_n_01_1_1132.batchCoord (ix2 b d) 2 + gather_S2048x2048x32_S2048x2_S2048x32_1_01_n_n_01_1_1132.offCoord (ix2 b d) 2 = _
    rw [GatherDims.batchCoord_eq_zero gather_S2048x2048x32_S2048x2_S2048x32_1_01_n_n_01_1_1132 (ix2 b d) 2 (by decide), GatherDims.start,
      dif_neg (show ¬(2 : Fin S2048x2048x32.rank) ∈ gather_S2048x2048x32_S2048x2_S2048x32_1_01_n_n_01_1_1132.startIndexMap by decide), GatherDims.offCoord,
      dif_pos (show (2 : Fin S2048x2048x32.rank) ∈ gather_S2048x2048x32_S2048x2_S2048x32_1_01_n_n_01_1_1132.sKept by decide)]
    simp only [Nat.add_zero, Nat.zero_add]
    rfl

/-- Three columns of 32 side by side, read at an index, are the specification's row of 96. -/
theorem concat3_row (u v w : S2048x32.Idx → EReal) (j : S2048x96.Idx) :
    concatenate S2048x96 1 [⟨S2048x32, u⟩, ⟨S2048x32, v⟩, ⟨S2048x32, w⟩] concatenates_S2048x32_S2048x32_S2048x32_S2048x96_d1 j
      = Cert.Spec.row3 (fun d => u (ix2 (j 0) d)) (fun d => v (ix2 (j 0) d)) (fun d => w (ix2 (j 0) d)) (j 1) := by
  have key := fun (k : Fin 3) x hx pre hpre (d : Fin 32) hd =>
    concatenate_apply_piece 1 [⟨S2048x32, u⟩, ⟨S2048x32, v⟩, ⟨S2048x32, w⟩] concatenates_S2048x32_S2048x32_S2048x32_S2048x96_d1 j k.val k.isLt S2048x32 x hx rfl pre hpre
      (ix2 (j 0) d) (fun e he => by match e with | ⟨0, _⟩ => rfl | ⟨1, _⟩ => exact absurd rfl he) hd
  have hq := idx2_lt1 j
  unfold Cert.Spec.row3
  by_cases h1 : (j 1).val < 32
  · rw [dif_pos h1]
    exact key 0 u rfl 0 rfl ⟨(j 1).val, h1⟩ (Nat.zero_add _)
  · rw [dif_neg h1]
    by_cases h2 : (j 1).val < 64
    · rw [dif_pos h2]
      exact key 1 v rfl 32 rfl ⟨(j 1).val - 32, by omega⟩ (by show 32 + ((j 1).val - 32) = (j 1).val; omega)
    · rw [dif_neg h2]
      exact key 2 w rfl 64 rfl ⟨(j 1).val - 64, by omega⟩ (by show 64 + ((j 1).val - 64) = (j 1).val; omega)

variable (x0 : (⟨S2048x2048x32, .f32⟩ : BufTy).Contents (Elt Ideal)) (x1 : (⟨S2048, .i32⟩ : BufTy).Contents (Elt Ideal))

theorem ref_msk (j : S2048x2048.Idx) : val_main_v6 (F := Ideal) x1 j = Cert.Spec.msk x1 (j 0) (j 1) := by
  rw [val_main_v6_apply, val_main_v5_apply, val_main_v3_apply, val_main_v1_apply, val_main_v0_apply, val_main_v4_apply,
    val_main_v2_apply, eq_ix1 (idx_main_v2 _)]
  exact mask_word (j 1) _

theorem ref_mean (i : S2048x32.Idx) : val_main_v14 (F := Ideal) x0 x1 i = Cert.Spec.mean x0 x1 (i 0) (i 1) := by
  simp only [val_main_v14_apply, val_main_v13_apply, val_main_v8_apply, val_main_v7_apply, val_main_v12_apply, val_main_cst_apply,
    val_main_v11_apply, val_main_v10_apply, val_main_v9_apply, ref_msk, Ideal.mulf_def, Ideal.hostDivf_def, Ideal.ofBits_def,
    Ideal.ofBits_zero_f32, zero_add]
  rw [eq_ix1 (idx_main_v8 _)]
  exact congrArg₂ Ideal.div (Finset.sum_congr rfl fun t _ => by rw [eq_ix3 (idx_main_v12 i t)]; rfl) rfl

theorem ref_std (i : S2048x32.Idx) : val_main_v27 (F := Ideal) x0 x1 i = Cert.Spec.stdR x0 x1 (i 0) (i 1) := by
  simp only [val_main_v27_apply, val_main_v26_apply, val_main_v25_apply, val_main_v24_apply, val_main_v23_apply,
    val_main_cst_1_apply, val_main_v8_apply, val_main_v7_apply, val_main_v22_apply, val_main_cst_0_apply, val_main_v21_apply,
    val_main_v20_apply, val_main_v19_apply, val_main_v18_apply, val_main_v17_apply, val_main_v16_apply, val_main_v15_apply,
    ref_msk, ref_mean, Ideal.mulf_def, Ideal.subf_def, Ideal.hostDivf_def, Ideal.hostUnary_sqrt_def, Ideal.ofBits_def,
    Ideal.ofBits_zero_f32, zero_add]
  rw [eq_ix1 (idx_main_v8 _)]
  exact congrArg Ideal.sqrt (congrArg₂ Ideal.div (Finset.sum_congr rfl fun t _ => by rw [eq_ix3 (idx_main_v22 i t)]; rfl) rfl)

theorem ref_start0 (b : Fin 2048) : val_main_v43 (F := Ideal) x1 (ix2 b (0 : Fin 2)) = BitVec.ofNat 32 b.val := by
  refine (concatenate_pair_apply_left 1 _ _ concatenates_S2048x1_S2048x1_S2048x2_d1 _ rfl (ix2 b (0 : Fin 1))
    fun e => by match e with | ⟨0, _⟩ => rfl | ⟨1, _⟩ => rfl).trans ?_
  rw [val_main_v41_apply, val_main_v35_apply, val_main_v32_apply, val_main_v34_apply, val_main_v28_apply, val_main_v31_apply,
    val_main_c_2_apply, val_main_v33_apply, val_main_c_3_apply]
  exact wrap (BitVec.ofNat 32 b.val) (by rw [WordArith.toInt_ofNat_small b.val (by have := b.isLt; omega)]; omega)

theorem ref_start1 (hlen : ∀ b : Fin 2048, 2 ≤ (x1 (ix1 b)).toInt ∧ (x1 (ix1 b)).toInt ≤ 2048) (b : Fin 2048) :
    val_main_v43 (F := Ideal) x1 (ix2 b (1 : Fin 2)) = IntOp.subi (x1 (ix1 b)) 1#32 := by
  refine (concatenate_pair_apply_right 1 _ _ concatenates_S2048x1_S2048x1_S2048x2_d1 _ rfl rfl (ix2 b (0 : Fin 1))
    (fun e he => by match e with | ⟨0, _⟩ => rfl | ⟨1, _⟩ => exact absurd rfl he) rfl).trans ?_
  rw [val_main_v42_apply, val_main_v40_apply, val_main_v37_apply, val_main_v39_apply, val_main_v30_apply, val_main_v29_apply,
    val_main_c_apply, val_main_v36_apply, val_main_c_4_apply, val_main_v38_apply, val_main_c_5_apply, eq_ix1 (idx_main_v42 _)]
  exact wrap (IntOp.subi (x1 (ix1 b)) 1#32) (by rw [toInt_pred _ (hlen b)]; have := hlen b; omega)

/-- With lengths between 2 and 2048 neither start index is clamped: the row read is the last counted step. -/
theorem ref_last (hlen : ∀ b : Fin 2048, 2 ≤ (x1 (ix1 b)).toInt ∧ (x1 (ix1 b)).toInt ≤ 2048) (i : S2048x32.Idx) :
    val_main_v44 (F := Ideal) x0 x1 i = Cert.Spec.lastR x0 x1 (i 0) (i 1) := by
  have hl := hlen (i 0)
  refine (congrArg (val_main_v44 (F := Ideal) x0 x1) (eq_ix2 i)).trans
    (gather_rows_apply x0 _ (i 0) (i 0) (Cert.Spec.lastIdx x1 (i 0)) (i 1) ?_ ?_)
  · rw [ref_start0 x1 (i 0), WordArith.toInt_ofNat_small (i 0).val (by have := idx2_lt0 i; omega)]
  · rw [ref_start1 x1 hlen (i 0), toInt_pred _ hl]
    show _ = ((((x1 (ix1 (i 0))).toInt - 1).toNat % 2048 : ℕ) : ℤ)
    omega

end Feats

open Feats in
theorem ref_feats (x0 : (⟨S2048x2048x32, .f32⟩ : BufTy).Contents (Elt Ideal)) (x1 : (⟨S2048, .i32⟩ : BufTy).Contents (Elt Ideal))
    (hlen : ∀ b : Fin 2048, 2 ≤ (x1 (ix1 b)).toInt ∧ (x1 (ix1 b)).toInt ≤ 2048) :
    Cert.ReferenceIdeal.Read.val_main_v45 (F := Ideal) x0 x1 = Cert.Spec.featsR x0 x1 := by
  funext j
  refine (concat3_row _ _ _ j).trans ?_
  simp only [ref_mean, ref_std, ref_last x0 x1 hlen]
  rfl

end Cert.RefVal

end
-- ==== Proof.Ref.Mlp1.lean ====
import proofs.«401628_j66357244723446_2_alg».proof.Proof.Gen.ReferenceIdeal.Read
import proofs.«401628_j66357244723446_2_alg».proof.Proof.Spec

noncomputable section

open scoped BigOperators

namespace Cert.RefVal

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

variable (x0 : (⟨S2048x2048x32, .f32⟩ : BufTy).Contents (Elt Ideal)) (x1 : (⟨S2048, .i32⟩ : BufTy).Contents (Elt Ideal))
  (x2 : (⟨S3x256x96, .f32⟩ : BufTy).Contents (Elt Ideal)) (x3 x4 x5 : (⟨S3x256, .f32⟩ : BufTy).Contents (Elt Ideal))

/-- The first linear layer at any index: the contraction's factors commuted, the bias read at (member, unit). -/
theorem ref_h1 (i : S3x2048x256.Idx) :
    val_main_v50 (F := Ideal) x0 x1 x2 x3 i = Cert.Spec.h1 (val_main_v45 (F := Ideal) x0 x1) x2 x3 (i 0) (i 1) (i 2) := by
  rw [val_main_v50_apply, val_main_v47_apply, val_main_v49_apply, val_main_v48_apply, val_main_v46_apply, Ideal.addf_def]
  exact congrArg₂ (· + ·) (Finset.sum_congr rfl fun k _ => by
    rw [eq_ix3 (lidx_main_v46 _ k), eq_ix2 (ridx_main_v46 _ k)]; exact mul_comm _ _) (congrArg x3 (eq_ix2 _))

/-- Normalised over the 2048 rows of its column, then rectified. -/
theorem ref_n1 (i : S3x2048x256.Idx) :
    val_main_v75 (F := Ideal) x0 x1 x2 x3 x4 x5 i
      = Cert.Spec.n1 (val_main_v45 (F := Ideal) x0 x1) x2 x3 x4 x5 (i 0) (i 1) (i 2) := by
  simp only [val_main_v75_apply, val_main_call0_v0_apply, val_main_call0_cst_apply, val_main_v74_apply, val_main_v73_apply,
    val_main_v72_apply, val_main_v71_apply, val_main_v70_apply, val_main_v69_apply, val_main_v68_apply, val_main_v67_apply,
    val_main_v66_apply, val_main_v65_apply, val_main_v64_apply, val_main_cst_10_apply, val_main_v63_apply, val_main_v62_apply,
    val_main_v61_apply, val_main_v60_apply, val_main_cst_9_apply, val_main_v59_apply, val_main_v58_apply, val_main_cst_8_apply,
    val_main_v57_apply, val_main_v56_apply, val_main_v55_apply, val_main_v54_apply, val_main_v53_apply, val_main_cst_7_apply,
    val_main_v52_apply, val_main_v51_apply, val_main_cst_6_apply, ref_h1, Ideal.maximumf_def, Ideal.addf_def, Ideal.mulf_def,
    Ideal.subf_def, Ideal.hostDivf_def, Ideal.hostUnary_rsqrt_def, Ideal.ofBits_def, Ideal.ofBits_zero_f32, zero_add]
  rw [eq_ix2 (idx_main_v69 _), eq_ix2 (idx_main_v72 _)]
  rfl

end Cert.RefVal

end
-- ==== Proof.Ref.Mlp2.lean ====
import proofs.«401628_j66357244723446_2_alg».proof.Proof.Ref.Mlp1

noncomputable section

open scoped BigOperators

namespace Cert.RefVal

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

variable (x0 : (⟨S2048x2048x32, .f32⟩ : BufTy).Contents (Elt Ideal)) (x1 : (⟨S2048, .i32⟩ : BufTy).Contents (Elt Ideal))
  (x2 : (⟨S3x256x96, .f32⟩ : BufTy).Contents (Elt Ideal)) (x3 x4 x5 : (⟨S3x256, .f32⟩ : BufTy).Contents (Elt Ideal))
variable (x6 : (⟨S3x128x256, .f32⟩ : BufTy).Contents (Elt Ideal)) (x7 x8 x9 : (⟨S3x128, .f32⟩ : BufTy).Contents (Elt Ideal))
  (x10 : (⟨S3x2x128, .f32⟩ : BufTy).Contents (Elt Ideal)) (x11 : (⟨S3x2, .f32⟩ : BufTy).Contents (Elt Ideal))

/-- The second linear layer at any index. -/
theorem ref_h2 (i : S3x2048x128.Idx) :
    val_main_v79 (F := Ideal) x0 x1 x2 x3 x4 x5 x6 x7 i
      = Cert.Spec.h2 (val_main_v45 (F := Ideal) x0 x1) x2 x3 x4 x5 x6 x7 (i 0) (i 1) (i 2) := by
  rw [val_main_v79_apply, val_main_v76_apply, val_main_v78_apply, val_main_v77_apply, Ideal.addf_def]
  exact congrArg₂ (· + ·) (Finset.sum_congr rfl fun h _ => by rw [ref_n1, eq_ix3 (ridx_main_v76 _ h)]; rfl)
    (congrArg x7 (eq_ix2 _))

/-- Normalised over the 2048 rows of its column, then rectified. -/
theorem ref_n2 (i : S3x2048x128.Idx) :
    val_main_v104 (F := Ideal) x0 x1 x2 x3 x4 x5 x6 x7 x8 x9 i
      = Cert.Spec.n2 (val_main_v45 (F := Ideal) x0 x1) x2 x3 x4 x5 x6 x7 x8 x9 (i 0) (i 1) (i 2) := by
  simp only [val_main_v104_apply, val_main_call1_v0_apply, val_main_call1_cst_apply, val_main_v103_apply, val_main_v102_apply,
    val_main_v101_apply, val_main_v100_apply, val_main_v99_apply, val_main_v98_apply, val_main_v97_apply, val_main_v96_apply,
    val_main_v95_apply, val_main_v94_apply, val_main_v93_apply, val_main_cst_15_apply, val_main_v92_apply, val_main_v91_apply,
    val_main_v90_apply, val_main_v89_apply, val_main_cst_14_apply, val_main_v88_apply, val_main_v87_apply, val_main_cst_13_apply,
    val_main_v86_apply, val_main_v85_apply, val_main_v84_apply, val_main_v83_apply, val_main_v82_apply, val_main_cst_12_apply,
    val_main_v81_apply, val_main_v80_apply, val_main_cst_11_apply, ref_h2, Ideal.maximumf_def, Ideal.addf_def, Ideal.mulf_def,
    Ideal.subf_def, Ideal.hostDivf_def, Ideal.hostUnary_rsqrt_def, Ideal.ofBits_def, Ideal.ofBits_zero_f32, zero_add]
  rw [eq_ix2 (idx_main_v98 _), eq_ix2 (idx_main_v101 _)]
  rfl

/-- The output layer at any index. -/
theorem ref_o3 (i : S3x2048x2.Idx) :
    val_main_v108 (F := Ideal) x0 x1 x2 x3 x4 x5 x6 x7 x8 x9 x10 x11 i
      = Cert.Spec.o3 (val_main_v45 (F := Ideal) x0 x1) x2 x3 x4 x5 x6 x7 x8 x9 x10 x11 (i 0) (i 1) (i 2) := by
  rw [val_main_v108_apply, val_main_v105_apply, val_main_v107_apply, val_main_v106_apply, Ideal.addf_def]
  exact congrArg₂ (· + ·) (Finset.sum_congr rfl fun k _ => by rw [ref_n2, eq_ix3 (ridx_main_v105 _ k)]; rfl)
    (congrArg x11 (eq_ix2 _))

/-- The three members' outputs summed from zero and divided by three. -/
theorem ref_mlp :
    val_main_v111 (F := Ideal) x0 x1 x2 x3 x4 x5 x6 x7 x8 x9 x10 x11
      = Cert.Spec.mlp (val_main_v45 (F := Ideal) x0 x1) x2 x3 x4 x5 x6 x7 x8 x9 x10 x11 := by
  funext i
  rw [val_main_v111_apply, val_main_v109_apply, val_main_v110_apply, val_main_cst_17_apply, val_main_cst_16_apply,
    Fin.sum_univ_three, ref_o3, ref_o3, ref_o3, Ideal.hostDivf_def, Ideal.ofBits_def, Ideal.ofBits_def, Ideal.ofBits_zero_f32,
    zero_add]
  rfl

end Cert.RefVal

end
-- ==== Proof.KI.R0Runs.lean ====
import proofs.«401628_j66357244723446_2_alg».proof.Proof.Gen.KernelIdeal.Launch
import proofs.«401628_j66357244723446_2_alg».proof.Proof.Gen.KernelIdeal.Skeleton
import proofs.«401628_j66357244723446_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 16 = 0 :=
  (by decide +kernel : ∀ t : Fin grid0.N, cond0_0 (grid0.coords t) ↔ t.val % 16 = 0)

abbrev cond0_1 (i : grid0.Coords) : Prop := k0_cond2 i = 1#1

theorem hcond0_1 : ∀ t : Fin cfg0.N, cond0_1 (grid0.coords t) ↔ t.val % 16 = 15 :=
  (by decide +kernel : ∀ t : Fin grid0.N, cond0_1 (grid0.coords t) ↔ t.val % 16 = 15)

theorem liveAt0_0 : ∀ t : Fin cfg0.N, cfg0.idle 0 (grid0.coords t) = false := by decide +kernel
theorem liveAt0_1 : ∀ t : Fin cfg0.N, cfg0.idle 1 (grid0.coords t) = false := by decide +kernel

theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel

theorem liveAt0_2_C : ∀ t : Fin cfg0.N, ¬cond0_0 (grid0.coords t) → cond0_1 (grid0.coords t) → cfg0.idle 2 (grid0.coords t) = false := by decide +kernel

abbrev VO0_2 : View sig .tc .vmem S256x96 .f32 := (Memref.whole cc0_stg2_0 : Memref sig .tc .vmem S256x96 .f32).view

abbrev ms0_0 (t : Fin cfg0.N) : Memref sig .tc .vmem S256x128x32 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x96 .f32 := win0_2.stage (cfg0.slots t 2)
abbrev hs0_2 (t : Fin cfg0.N) : (ms0_2 t).IsWhole := hstage0_2 ((cfg0.slots t 2).cast nbuf0_2)

abbrev scM0_0 : Memref sig .tc .vmem S256x32 .f32 := Memref.whole cc0_scratch0
abbrev scM0_1 : Memref sig .tc .vmem S256x32 .f32 := Memref.whole cc0_scratch1
abbrev scM0_2 : Memref sig .tc .vmem S256x32 .f32 := Memref.whole cc0_scratch2

abbrev VS0_0 : View sig .tc .vmem S256x32 .f32 := scM0_0.view
abbrev VS0_1 : View sig .tc .vmem S256x32 .f32 := scM0_1.view
abbrev VS0_2 : View sig .tc .vmem S256x32 .f32 := scM0_2.view

def rest12 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg7_0), ((c : Thread nD τ).loc cc1_stg7_0) ↦{fullShare} f)
    ∗ (∃ f : Buf (Elt F) ((c : Thread nD τ).loc cc1_stg8_0), ((c : Thread nD τ).loc cc1_stg8_0) ↦{fullShare} f)
    ∗ (∃ f : Buf (Elt F) ((c : Thread nD τ).loc cc1_stg9_0), ((c : Thread nD τ).loc cc1_stg9_0) ↦{fullShare} f)
    ∗ (∃ f : Buf (Elt F) ((c : Thread nD τ).loc cc1_stg10_0), ((c : Thread nD τ).loc cc1_stg10_0) ↦{fullShare} f)
    ∗ (∃ f : Buf (Elt F) ((c : Thread nD τ).loc cc1_stg11_0), ((c : Thread nD τ).loc cc1_stg11_0) ↦{fullShare} f))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ rest12 (F := F) c) ∗ (∃ r, prngReg c r)) := by
  unfold Pipeline.ΦA rest12; rw [scopedRest0_eq]; simp only [scM0_0, scM0_1, scM0_2, owns_whole]; try rfl

end Cert.KernelIdeal.Fr

end
-- ==== Proof.KI.R0RunA.lean ====
import proofs.«401628_j66357244723446_2_alg».proof.Proof.KI.R0Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun0_A (c : Dev nD) (i : grid0.Coords) (arg2 : Memref sig .tc .vmem S256x128x32 .f32) (harg2 : arg2.IsWhole) (arg3 : Memref sig .tc .vmem S256x1 .i32) (harg3 : arg3.IsWhole) (arg4 : Memref sig .tc .vmem S256x96 .f32) (harg4 : arg4.IsWhole) (arg5 : Memref sig .tc .vmem S256x32 .f32) (harg5 : arg5.IsWhole) (arg6 : Memref sig .tc .vmem S256x32 .f32) (harg6 : arg6.IsWhole) (arg7 : Memref sig .tc .vmem S256x32 .f32) (harg7 : arg7.IsWhole) (hc0 : cond0_0 i) (hc1 : ¬cond0_1 i)
    (x0 : Vec F S256x128x32 .f32) (x1 : Vec F S256x1 .i32) :
    Σ' (L2 : List (View.Piece (Elt F) S256x96 .f32)) (LS0 : List (View.Piece (Elt F) S256x32 .f32)) (LS1 : List (View.Piece (Elt F) S256x32 .f32)), { LS2 : List (View.Piece (Elt F) S256x32 .f32) //
      ∀ (xi2 : Vec F S256x96 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__lambda_ i arg2 harg2 arg3 harg3 arg4 harg4 arg5 harg5 arg6 harg6 arg7 harg7) K } := by
  refine ⟨[], ?_, ?_, ?_, fun xi2 E K => ?run⟩
  case run =>
    simp only [cc0__lambda__eq_skeleton]; unfold cc0__lambda__skel
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

end Cert.KernelIdeal.Fr

end
-- ==== Proof.KI.R0RunB.lean ====
import proofs.«401628_j66357244723446_2_alg».proof.Proof.KI.R0RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun0_B (c : Dev nD) (i : grid0.Coords) (arg2 : Memref sig .tc .vmem S256x128x32 .f32) (harg2 : arg2.IsWhole) (arg3 : Memref sig .tc .vmem S256x1 .i32) (harg3 : arg3.IsWhole) (arg4 : Memref sig .tc .vmem S256x96 .f32) (harg4 : arg4.IsWhole) (arg5 : Memref sig .tc .vmem S256x32 .f32) (harg5 : arg5.IsWhole) (arg6 : Memref sig .tc .vmem S256x32 .f32) (harg6 : arg6.IsWhole) (arg7 : Memref sig .tc .vmem S256x32 .f32) (harg7 : arg7.IsWhole) (hc0 : ¬cond0_0 i) (hc1 : ¬cond0_1 i)
    (x0 : Vec F S256x128x32 .f32) (x1 : Vec F S256x1 .i32) (xs0 : Vec F S256x32 .f32) (xs1 : Vec F S256x32 .f32) (xs2 : Vec F S256x32 .f32) :
    Σ' (L2 : List (View.Piece (Elt F) S256x96 .f32)) (LS0 : List (View.Piece (Elt F) S256x32 .f32)) (LS1 : List (View.Piece (Elt F) S256x32 .f32)), { LS2 : List (View.Piece (Elt F) S256x32 .f32) //
      ∀ (xi2 : Vec F S256x96 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__lambda_ i arg2 harg2 arg3 harg3 arg4 harg4 arg5 harg5 arg6 harg6 arg7 harg7) K } := by
  refine ⟨[], ?_, ?_, ?_, fun xi2 E K => ?run⟩
  case run =>
    simp only [cc0__lambda__eq_skeleton]; unfold cc0__lambda__skel
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

end Cert.KernelIdeal.Fr

end
-- ==== Proof.KI.R0RunC.lean ====
import proofs.«401628_j66357244723446_2_alg».proof.Proof.KI.R0RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun0_C (c : Dev nD) (i : grid0.Coords) (arg2 : Memref sig .tc .vmem S256x128x32 .f32) (harg2 : arg2.IsWhole) (arg3 : Memref sig .tc .vmem S256x1 .i32) (harg3 : arg3.IsWhole) (arg4 : Memref sig .tc .vmem S256x96 .f32) (harg4 : arg4.IsWhole) (arg5 : Memref sig .tc .vmem S256x32 .f32) (harg5 : arg5.IsWhole) (arg6 : Memref sig .tc .vmem S256x32 .f32) (harg6 : arg6.IsWhole) (arg7 : Memref sig .tc .vmem S256x32 .f32) (harg7 : arg7.IsWhole) (hc0 : ¬cond0_0 i) (hc1 : cond0_1 i)
    (x0 : Vec F S256x128x32 .f32) (x1 : Vec F S256x1 .i32) (xs0 : Vec F S256x32 .f32) (xs1 : Vec F S256x32 .f32) (xs2 : Vec F S256x32 .f32) :
    Σ' (L2 : List (View.Piece (Elt F) S256x96 .f32)) (LS0 : List (View.Piece (Elt F) S256x32 .f32)) (LS1 : List (View.Piece (Elt F) S256x32 .f32)), { LS2 : List (View.Piece (Elt F) S256x32 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__lambda_ i arg2 harg2 arg3 harg3 arg4 harg4 arg5 harg5 arg6 harg6 arg7 harg7) K } := by
  refine ⟨?_, ?_, ?_, ?_, fun E K => ?run⟩
  case run =>
    simp only [cc0__lambda__eq_skeleton]; unfold cc0__lambda__skel
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    isplitl [HS1]; · iexists _; iexact HS1
    iexists _; iexact HS2

end Cert.KernelIdeal.Fr

end
-- ==== Proof.KI.R0Frame.lean ====
import proofs.«401628_j66357244723446_2_alg».proof.Proof.KI.R0RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Four lists of pieces — the output block's, then the three accumulators' — each written over a placeholder and read back:
    where the pieces cover, this is what the buffer holds whatever it held before. -/
def rb4 {P : List (View.Piece (Elt F) S256x96 .f32) → List (View.Piece (Elt F) S256x32 .f32) → List (View.Piece (Elt F) S256x32 .f32) → List (View.Piece (Elt F) S256x32 .f32) → Prop}
    (r : Σ' (L2 : List (View.Piece (Elt F) S256x96 .f32)) (LS0 : List (View.Piece (Elt F) S256x32 .f32)) (LS1 : List (View.Piece (Elt F) S256x32 .f32)), { LS2 : List (View.Piece (Elt F) S256x32 .f32) // P L2 LS0 LS1 LS2 }) : Vec F S256x96 .f32 × Vec F S256x32 .f32 × Vec F S256x32 .f32 × Vec F S256x32 .f32 :=
  (VO0_2.read (Elt F) (VO0_2.writes (Elt F) VO0_2.junk r.1), VS0_0.read (Elt F) (VS0_0.writes (Elt F) VS0_0.junk r.2.1),
    VS0_1.read (Elt F) (VS0_1.writes (Elt F) VS0_1.junk r.2.2.1), VS0_2.read (Elt F) (VS0_2.writes (Elt F) VS0_2.junk r.2.2.2.1))

section
variable (c : Dev nD) (i : grid0.Coords) (arg2 : Memref sig .tc .vmem S256x128x32 .f32) (harg2 : arg2.IsWhole) (arg3 : Memref sig .tc .vmem S256x1 .i32) (harg3 : arg3.IsWhole) (arg4 : Memref sig .tc .vmem S256x96 .f32) (harg4 : arg4.IsWhole) (arg5 : Memref sig .tc .vmem S256x32 .f32) (harg5 : arg5.IsWhole) (arg6 : Memref sig .tc .vmem S256x32 .f32) (harg6 : arg6.IsWhole) (arg7 : Memref sig .tc .vmem S256x32 .f32) (harg7 : arg7.IsWhole)

section
variable (hc0 : cond0_0 i) (hc1 : ¬cond0_1 i) (x0 : Vec F S256x128x32 .f32) (x1 : Vec F S256x1 .i32)
theorem scover0_A_0 (y : S256x32.Idx) : ∃ pc ∈ (kernelRun0_A c i arg2 harg2 arg3 harg3 arg4 harg4 arg5 harg5 arg6 harg6 arg7 harg7 hc0 hc1 x0 x1).2.1, y ∈ pc.1.set :=
  View.cover_of_tiledL _ S256x32.size (by sl_kernel_rfl) y
theorem scover0_A_1 (y : S256x32.Idx) : ∃ pc ∈ (kernelRun0_A c i arg2 harg2 arg3 harg3 arg4 harg4 arg5 harg5 arg6 harg6 arg7 harg7 hc0 hc1 x0 x1).2.2.1, y ∈ pc.1.set :=
  View.cover_of_tiledL _ S256x32.size (by sl_kernel_rfl) y
theorem scover0_A_2 (y : S256x32.Idx) : ∃ pc ∈ (kernelRun0_A c i arg2 harg2 arg3 harg3 arg4 harg4 arg5 harg5 arg6 harg6 arg7 harg7 hc0 hc1 x0 x1).2.2.2.1, y ∈ pc.1.set :=
  View.cover_of_tiledL _ S256x32.size (by sl_kernel_rfl) y
end

section
variable (hc0 : ¬cond0_0 i) (hc1 : ¬cond0_1 i) (x0 : Vec F S256x128x32 .f32) (x1 : Vec F S256x1 .i32) (xs0 xs1 xs2 : Vec F S256x32 .f32)
theorem scover0_B_0 (y : S256x32.Idx) : ∃ pc ∈ (kernelRun0_B c i arg2 harg2 arg3 harg3 arg4 harg4 arg5 harg5 arg6 harg6 arg7 harg7 hc0 hc1 x0 x1 xs0 xs1 xs2).2.1, y ∈ pc.1.set :=
  View.cover_of_tiledL _ S256x32.size (by sl_kernel_rfl) y
theorem scover0_B_1 (y : S256x32.Idx) : ∃ pc ∈ (kernelRun0_B c i arg2 harg2 arg3 harg3 arg4 harg4 arg5 harg5 arg6 harg6 arg7 harg7 hc0 hc1 x0 x1 xs0 xs1 xs2).2.2.1, y ∈ pc.1.set :=
  View.cover_of_tiledL _ S256x32.size (by sl_kernel_rfl) y
theorem scover0_B_2 (y : S256x32.Idx) : ∃ pc ∈ (kernelRun0_B c i arg2 harg2 arg3 harg3 arg4 harg4 arg5 harg5 arg6 harg6 arg7 harg7 hc0 hc1 x0 x1 xs0 xs1 xs2).2.2.2.1, y ∈ pc.1.set :=
  View.cover_of_tiledL _ S256x32.size (by sl_kernel_rfl) y
end

section
variable (hc0 : ¬cond0_0 i) (hc1 : cond0_1 i) (x0 : Vec F S256x128x32 .f32) (x1 : Vec F S256x1 .i32) (xs0 xs1 xs2 : Vec F S256x32 .f32)
theorem cover0_C_2 (y : S256x96.Idx) : ∃ pc ∈ (kernelRun0_C c i arg2 harg2 arg3 harg3 arg4 harg4 arg5 harg5 arg6 harg6 arg7 harg7 hc0 hc1 x0 x1 xs0 xs1 xs2).1, y ∈ pc.1.set :=
  View.cover_of_tiledL (s := S256x96) _ S256x32.size (by sl_kernel_rfl) y
theorem scover0_C_0 (y : S256x32.Idx) : ∃ pc ∈ (kernelRun0_C c i arg2 harg2 arg3 harg3 arg4 harg4 arg5 harg5 arg6 harg6 arg7 harg7 hc0 hc1 x0 x1 xs0 xs1 xs2).2.1, y ∈ pc.1.set :=
  View.cover_of_tiledL _ S256x32.size (by sl_kernel_rfl) y
theorem scover0_C_1 (y : S256x32.Idx) : ∃ pc ∈ (kernelRun0_C c i arg2 harg2 arg3 harg3 arg4 harg4 arg5 harg5 arg6 harg6 arg7 harg7 hc0 hc1 x0 x1 xs0 xs1 xs2).2.2.1, y ∈ pc.1.set :=
  View.cover_of_tiledL _ S256x32.size (by sl_kernel_rfl) y
theorem scover0_C_2 (y : S256x32.Idx) : ∃ pc ∈ (kernelRun0_C c i arg2 harg2 arg3 harg3 arg4 harg4 arg5 harg5 arg6 harg6 arg7 harg7 hc0 hc1 x0 x1 xs0 xs1 xs2).2.2.2.1, y ∈ pc.1.set :=
  View.cover_of_tiledL _ S256x32.size (by sl_kernel_rfl) y
end
end

/-- The body's run at grid point `t`, by case: on the point's memrefs, the three accumulators and the two input blocks;
    away from a row block's first tile also on what the accumulators held, `s`. -/
abbrev runA (c : Dev nD) (t : Fin cfg0.N) (h0 : t.val % 16 = 0) (h1 : ¬t.val % 16 = 15) :=
  kernelRun0_A c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t)
abbrev runB (c : Dev nD) (t : Fin cfg0.N) (h0 : ¬t.val % 16 = 0) (h1 : ¬t.val % 16 = 15) (s : Vec F S256x32 .f32 × Vec F S256x32 .f32 × Vec F S256x32 .f32) :=
  kernelRun0_B c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) s.1 s.2.1 s.2.2
abbrev runC (c : Dev nD) (t : Fin cfg0.N) (h0 : ¬t.val % 16 = 0) (h1 : t.val % 16 = 15) (s : Vec F S256x32 .f32 × Vec F S256x32 .f32 × Vec F S256x32 .f32) :=
  kernelRun0_C c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) s.1 s.2.1 s.2.2

/-- What the output block's buffer and the three accumulators hold after grid point `n`: the point's case read back, the
    accumulators found at what the point before left. -/
def outsAt0 (c : Dev nD) : (n : ℕ) → n < cfg0.N → Vec F S256x96 .f32 × Vec F S256x32 .f32 × Vec F S256x32 .f32 × Vec F S256x32 .f32
  | 0, hn => rb4 (runA V c ⟨0, hn⟩ (Nat.zero_mod _) (fun h => absurd ((Nat.zero_mod 16).symm.trans h) (by decide)))
  | n + 1, hn =>
    if h0 : (n + 1) % 16 = 0 then rb4 (runA V c ⟨n + 1, hn⟩ h0 (fun h => absurd (h0.symm.trans h) (by decide)))
    else if h1 : (n + 1) % 16 = 15 then rb4 (runC V c ⟨n + 1, hn⟩ h0 h1 (outsAt0 c n (Nat.lt_of_succ_lt hn)).2)
    else rb4 (runB V c ⟨n + 1, hn⟩ h0 h1 (outsAt0 c n (Nat.lt_of_succ_lt hn)).2)

/-- What the accumulators held when point `t` began. -/
abbrev prevAt (c : Dev nD) (t : Fin cfg0.N) : Vec F S256x32 .f32 × Vec F S256x32 .f32 × Vec F S256x32 .f32 :=
  (outsAt0 V c (t.val - 1) (Nat.lt_of_le_of_lt (Nat.sub_le _ _) t.isLt)).2

theorem outsAt0_A (c : Dev nD) (t : Fin cfg0.N) (h0 : t.val % 16 = 0) (h1 : ¬t.val % 16 = 15) : outsAt0 V c t.val t.isLt = rb4 (runA V c t h0 h1) := by
  obtain ⟨n, hn⟩ := t
  cases n with
  | zero => rfl
  | succ n => exact dif_pos h0

theorem outsAt0_B (c : Dev nD) (t : Fin cfg0.N) (h0 : ¬t.val % 16 = 0) (h1 : ¬t.val % 16 = 15) :
    outsAt0 V c t.val t.isLt = rb4 (runB V c t h0 h1 (prevAt V c t)) := by
  obtain ⟨n, hn⟩ := t
  cases n with
  | zero => exact absurd (Nat.zero_mod _) h0
  | succ n => exact (dif_neg h0).trans (dif_neg h1)

theorem outsAt0_C (c : Dev nD) (t : Fin cfg0.N) (h0 : ¬t.val % 16 = 0) (h1 : t.val % 16 = 15) :
    outsAt0 V c t.val t.isLt = rb4 (runC V c t h0 h1 (prevAt V c t)) := by
  obtain ⟨n, hn⟩ := t
  cases n with
  | zero => exact absurd (Nat.zero_mod _) h0
  | succ n => exact (dif_neg h0).trans (dif_pos h1)

/-- The accumulators at `s`, the twelve other scoped buffers at anything, the generator register at some state. -/
def accsAt (c : Dev nD) (s : Vec F S256x32 .f32 × Vec F S256x32 .f32 × Vec F S256x32 .f32) : sProp 𝕄 :=
  iprop(iprop(owns (c : Thread nD τ) scM0_0 fullShare s.1 ∗ owns (c : Thread nD τ) scM0_1 fullShare s.2.1 ∗ owns (c : Thread nD τ) scM0_2 fullShare s.2.2 ∗ rest12 (F := F) c) ∗ (∃ r, prngReg c r))

/-- The region invariant before position `n`: the launch's before the first point, afterwards the accumulators at what the
    point before left. -/
def PhiS (c : Dev nD) : (n : ℕ) → n ≤ cfg0.N → sProp 𝕄
  | 0, _ => Pipeline.ΦA spec0 c
  | n + 1, hn => accsAt c (outsAt0 V c n hn).2

theorem PhiS_pos (c : Dev nD) (n : ℕ) (h : n ≤ cfg0.N) (hz : n ≠ 0) :
    PhiS V c n h = accsAt c (outsAt0 V c (n - 1) (by omega)).2 := by
  cases n with
  | zero => exact absurd rfl hz
  | succ n => rfl

/-- Forgetting what the accumulators hold gives the launch's invariant back. -/
theorem PhiS_weak (c : Dev nD) (n : ℕ) (h : n ≤ cfg0.N) : PhiS V c n h ⊢
    iprop(iprop((∃ d, owns (c : Thread nD τ) scM0_0 fullShare d) ∗ (∃ d, owns (c : Thread nD τ) scM0_1 fullShare d) ∗ (∃ d, owns (c : Thread nD τ) scM0_2 fullShare d) ∗ rest12 (F := F) c) ∗ (∃ r, prngReg c r)) := by
  cases n with
  | zero => rw [← PhiA0_eq]; exact Idealize.SL.BI.Entails.refl _
  | succ n =>
    show accsAt c _ ⊢ _
    unfold accsAt
    iintro ⟨⟨HS0, HS1, HS2, HR⟩, Hg⟩
    isplitl [HS0 HS1 HS2 HR]
    · isplitl [HS0]; · iexists _; iexact HS0
      isplitl [HS1]; · iexists _; iexact HS1
      isplitl [HS2]; · iexists _; iexact HS2
      iexact HR
    iexact Hg

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- A memref written piece by piece, the pieces covering it, is owned at the pieces read back through any view. -/
theorem owns_writes {S : Shape} {φ : EltTy} (c : Dev nD) (M : Memref sig .tc .vmem S φ) (v : View sig .tc .vmem S φ)
    (L : List (View.Piece (Elt F) S φ)) (hL : ∀ y, ∃ pc ∈ L, y ∈ pc.1.set) :
    (iprop(∃ f, M.view.loc (c : Thread nD τ) ↦[M.view.set]{fullShare} M.view.writes (Elt F) f L) : sProp 𝕄)
      ⊢ owns (c : Thread nD τ) M fullShare (v.read (Elt F) (v.writes (Elt F) v.junk L)) := by
  iintro ⟨%f, H⟩
  unfold owns; iexists _; isplitr
  swap; · iexact H
  ipureintro; exact View.read_writes_of_cover _ _ _ _ _ hL

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the invariant hands it the accumulators (at anything where the reset runs) and takes them back at
    this point's contents, the pieces covering each; the output's memref comes back as found or, where the finalisation runs,
    with its three slices covering it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl,
    show (dat0 V c).Φ t.succ = accsAt c (outsAt0 V c t.val t.isLt).2 from rfl,
    show (dat0 V c).Φ t.castSucc = PhiS V c t.val (Nat.le_of_lt t.isLt) from by dsimp only [dat0]; simp only [Fin.coe_castSucc],
    show (dat0 V c).leavesExact 0 t = owns (c : Thread nD τ) (ms0_0 t) fullShare ((dat0 V c).after 0 t) from by
      unfold Dat.leavesExact; rw [liveAt0_0 t], after0_0,
    show (dat0 V c).leavesExact 1 t = owns (c : Thread nD τ) (ms0_1 t) fullShare ((dat0 V c).after 1 t) from by
      unfold Dat.leavesExact; rw [liveAt0_1 t], after0_1]
  have hN : t.val < 128 := lt_of_lt_of_eq t.isLt (show cfg0.N = 128 from N_0)
  by_cases h0 : t.val % 16 = 0
  · have h1 : ¬t.val % 16 = 15 := by omega
    rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h))),
      outsAt0_A V c t h0 h1]
    unfold rb4 accsAt; dsimp only
    refine (sep_mono_left (PhiS_weak V c _ _)).trans ?_
    iintro ⟨⟨⟨HS0, HS1, HS2, HR⟩, Hg⟩, Ho, ⟨%d0, H0⟩, ⟨%d1, H1⟩, ⟨%d2, H2⟩⟩
    iapply ((runA V c t h0 h1).2.2.2.2 _ Set.univ _)
    isplitl [H0]; · iexact H0
    isplitl [H1]; · iexact H1
    isplitl [H2]; · iexact H2
    isplitl [HS0]; · iexact HS0
    isplitl [HS1]; · iexact HS1
    isplitl [HS2]; · iexact HS2
    iintro ⟨H0, H1, H2, HS0, HS1, HS2⟩
    isplitl [HS0 HS1 HS2 HR Hg]
    · isplitl [HS0 HS1 HS2 HR]
      · isplitl [HS0]; · iapply owns_writes c _ _ _ (scover0_A_0 c _ _ _ _ _ _ _ _ _ _ _ _ _ _ _ _ _); iexact HS0
        isplitl [HS1]; · iapply owns_writes c _ _ _ (scover0_A_1 c _ _ _ _ _ _ _ _ _ _ _ _ _ _ _ _ _); iexact HS1
        isplitl [HS2]; · iapply owns_writes c _ _ _ (scover0_A_2 c _ _ _ _ _ _ _ _ _ _ _ _ _ _ _ _ _); iexact HS2
        iexact HR
      iexact Hg
    isplitl [Ho]; · iexact Ho
    isplitl [H0]; · iexact H0
    isplitl [H1]; · iexact H1
    iexists _; iexact H2
  · have hz : t.val ≠ 0 := fun h => h0 (by rw [h])
    rw [PhiS_pos V c _ _ hz]
    by_cases h1 : t.val % 16 = 15
    · rw [show (dat0 V c).leavesExact 2 t = owns (c : Thread nD τ) (ms0_2 t) fullShare ((dat0 V c).after 2 t) from by
          unfold Dat.leavesExact; rw [liveAt0_2_C t (fun h => h0 ((hcond0_0 t).mp h)) ((hcond0_1 t).mpr h1)], after0_2,
        outsAt0_C V c t h0 h1]
      unfold rb4 accsAt; dsimp only
      iintro ⟨⟨⟨HS0, HS1, HS2, HR⟩, Hg⟩, Ho, ⟨%d0, H0⟩, ⟨%d1, H1⟩, ⟨%d2, H2⟩⟩
      iapply ((runC V c t h0 h1 (prevAt V c t)).2.2.2.2 Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, H2, HS0, HS1, HS2⟩
      isplitl [HS0 HS1 HS2 HR Hg]
      · isplitl [HS0 HS1 HS2 HR]
        · isplitl [HS0]; · iapply owns_writes c _ _ _ (scover0_C_0 c _ _ _ _ _ _ _ _ _ _ _ _ _ _ _ _ _ _ _ _); iexact HS0
          isplitl [HS1]; · iapply owns_writes c _ _ _ (scover0_C_1 c _ _ _ _ _ _ _ _ _ _ _ _ _ _ _ _ _ _ _ _); iexact HS1
          isplitl [HS2]; · iapply owns_writes c _ _ _ (scover0_C_2 c _ _ _ _ _ _ _ _ _ _ _ _ _ _ _ _ _ _ _ _); iexact HS2
          iexact HR
        iexact Hg
      isplitl [Ho]; · iexact Ho
      isplitl [H0]; · iexact H0
      isplitl [H1]; · iexact H1
      iapply owns_writes c _ _ _ (cover0_C_2 c _ _ _ _ _ _ _ _ _ _ _ _ _ _ _ _ _ _ _ _); iexact H2
    · rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h))),
        outsAt0_B V c t h0 h1]
      unfold rb4 accsAt; dsimp only
      iintro ⟨⟨⟨HS0, HS1, HS2, HR⟩, Hg⟩, Ho, ⟨%d0, H0⟩, ⟨%d1, H1⟩, ⟨%d2, H2⟩⟩
      iapply ((runB V c t h0 h1 (prevAt V c t)).2.2.2.2 _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 HR Hg]
      · isplitl [HS0 HS1 HS2 HR]
        · isplitl [HS0]; · iapply owns_writes c _ _ _ (scover0_B_0 c _ _ _ _ _ _ _ _ _ _ _ _ _ _ _ _ _ _ _ _); iexact HS0
          isplitl [HS1]; · iapply owns_writes c _ _ _ (scover0_B_1 c _ _ _ _ _ _ _ _ _ _ _ _ _ _ _ _ _ _ _ _); iexact HS1
          isplitl [HS2]; · iapply owns_writes c _ _ _ (scover0_B_2 c _ _ _ _ _ _ _ _ _ _ _ _ _ _ _ _ _ _ _ _); iexact HS2
          iexact HR
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := Idealize.SL.BI.Entails.refl _

theorem Phi_weak (c : Dev nD) (t : Fin (cfg0.N + 1)) : (dat0 V c).Φ t ⊢ Pipeline.ΦA spec0 c := by
  rw [PhiA0_eq]; exact PhiS_weak V c t.val (Nat.le_of_lt_succ t.isLt)

theorem hout0 (c : Dev nD) : (dat0 V c).Φ (Fin.last cfg0.N) ⊢ Pipeline.ΦA spec0 c := Phi_weak V c _

end Cert.KernelIdeal.Fr

end
-- ==== Proof.KI.R1Run.lean ====
import proofs.«401628_j66357244723446_2_alg».proof.Proof.Gen.KernelIdeal.Launch
import proofs.«401628_j66357244723446_2_alg».proof.Proof.Gen.KernelIdeal.Skeleton
import proofs.«401628_j66357244723446_2_alg».proof.Proof.Gen.KernelIdeal.Points
import Idealize.ShloMosaic.Lib.Pipeline.FrameBody
import Idealize.ShloMosaic.Lib.Ring
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- Reading a whole memref is a bijection: owning it at `X` is holding its buffer at the one raw contents that read `X`.
theorem owns_unread {sh : Shape} {m : Memref sig .tc .vmem sh .f32} (h : m.IsWhole) (c : Dev nD) (X : Vec F sh .f32) :
    (owns (c : Thread nD τ) m fullShare X : sProp 𝕄) = iprop(m.view.loc (c : Thread nD τ) ↦[m.view.set]{fullShare} h.unread X) := by
  unfold owns
  refine BI.Entails.antisymm (show _ ⊢ (_ : sProp 𝕄) from ?_) (show _ ⊢ (_ : sProp 𝕄) from ?_)
  · iintro ⟨%f, %hf, H⟩; obtain rfl := h.eq_unread hf; iexact H
  · iintro H; iexists _; isplitr
    · ipureintro; exact h.read_unread _
    iexact H

variable (c : Dev nD) (i : grid1.Coords) (arg1 : Memref sig .tc .vmem S2048x96 .f32) (harg1 : arg1.IsWhole) (arg2 : Memref sig .tc .vmem S3x256x96 .f32) (harg2 : arg2.IsWhole) (arg3 : Memref sig .tc .vmem S3x256 .f32) (harg3 : arg3.IsWhole) (arg4 : Memref sig .tc .vmem S3x256 .f32) (harg4 : arg4.IsWhole) (arg5 : Memref sig .tc .vmem S3x256 .f32) (harg5 : arg5.IsWhole) (arg6 : Memref sig .tc .vmem S3x128x256 .f32) (harg6 : arg6.IsWhole) (arg7 : Memref sig .tc .vmem S3x128 .f32) (harg7 : arg7.IsWhole) (arg8 : Memref sig .tc .vmem S3x128 .f32) (harg8 : arg8.IsWhole) (arg9 : Memref sig .tc .vmem S3x128 .f32) (harg9 : arg9.IsWhole) (arg10 : Memref sig .tc .vmem S3x2x128 .f32) (harg10 : arg10.IsWhole) (arg11 : Memref sig .tc .vmem S3x2 .f32) (harg11 : arg11.IsWhole) (arg12 : Memref sig .tc .vmem S2048x2 .f32) (harg12 : arg12.IsWhole)
  (x0 : Vec F S2048x96 .f32) (x1 : Vec F S3x256x96 .f32) (x2 : Vec F S3x256 .f32) (x3 : Vec F S3x256 .f32) (x4 : Vec F S3x256 .f32) (x5 : Vec F S3x128x256 .f32) (x6 : Vec F S3x128 .f32) (x7 : Vec F S3x128 .f32) (x8 : Vec F S3x128 .f32) (x9 : Vec F S3x2x128 .f32) (x10 : Vec F S3x2 .f32)

-- The writes `L11` are chosen before the output's prior contents are opened, so they depend on the inputs alone.
noncomputable def kernelRun1 :
    { L11 : List (View.Piece (Elt F) S2048x2 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11)) -∗ K ⟨⟩))
          ⊢ wp frame (wpE (defs₀ (F := F)) Variants.none c none) E (cc1__lambda_ i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc1__lambda__eq_skeleton]; unfold cc1__lambda__skel
    rw [owns_unread harg1, owns_unread harg2, owns_unread harg3, owns_unread harg4, owns_unread harg5, owns_unread harg6, owns_unread harg7, owns_unread harg8, owns_unread harg9, owns_unread harg10, owns_unread harg11]
    unfold owns
    iintro ⟨H0, H1, H2, H3, H4, H5, H6, H7, H8, H9, H10, ⟨%d11, %f11, -, H11⟩, Hk⟩
    sl_exec
    sl_step
    iapply Hk
    iframe H0 H1 H2 H3 H4 H5 H6 H7 H8 H9 H10
    iexists _; iexact H11

-- The body's one store is of the whole block, so the writes tile it.
theorem cover1_11 (y : S2048x2.Idx) : ∃ pc ∈ (kernelRun1 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10).1, y ∈ pc.1.set :=
  View.cover_of_tiledL _ S2048x2.size (by sl_kernel_rfl) y

end Cert.KernelIdeal.Fr

end
-- ==== Proof.KI.R1Frame.lean ====
import proofs.«401628_j66357244723446_2_alg».proof.Proof.KI.R1Run

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

-- Window `w`'s block at point `t`, read off the array contents `V`.
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev VO1_11 : View sig .tc .vmem S2048x2 .f32 := (Memref.whole cc1_stg11_0 : Memref sig .tc .vmem S2048x2 .f32).view

-- Read back over junk: a covering list of writes leaves contents that do not depend on the prior ones.
def out1_11 (c : Dev nD) (t : Fin cfg1.N) (x0 : Vec F S2048x96 .f32) (x1 : Vec F S3x256x96 .f32) (x2 : Vec F S3x256 .f32) (x3 : Vec F S3x256 .f32) (x4 : Vec F S3x256 .f32) (x5 : Vec F S3x128x256 .f32) (x6 : Vec F S3x128 .f32) (x7 : Vec F S3x128 .f32) (x8 : Vec F S3x128 .f32) (x9 : Vec F S3x2x128 .f32) (x10 : Vec F S3x2 .f32) : Vec F S2048x2 .f32 :=
  VO1_11.read (Elt F) (VO1_11.writes (Elt F) VO1_11.junk (kernelRun1 c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) x0 x1 x2 x3 x4 x5 x6 x7 x8 x9 x10).1)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => out1_11 c t (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)
  Φ _ := Pipeline.ΦA spec1 c
  q _ := fullShare
  owed _ := 0

theorem A_eq1 (c : Dev nD) (w : Fin cfg1.W) : (dat1 V c).A w = V c (Pipeline.arrRef spec1 w) := rfl

theorem after1_11 (c : Dev nD) (t : Fin cfg1.N) : (dat1 V c).after 11 t = out1_11 c t (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) := by dsimp only [dat1]

-- Lets each input be handed to the run at the very contents the run returns it at.
theorem own_in1 (c : Dev nD) (t : Fin cfg1.N) (w : Fin cfg1.W) (hw : w ≠ 11) :
    iprop(∃ d, owns (c : Thread nD τ) ((cfg1.win w).stage (cfg1.slots t w)) fullShare ((dat1 V c).before w t d))
      = (owns (c : Thread nD τ) ((cfg1.win w).stage (cfg1.slots t w)) fullShare ((dat1 V c).after w t) : sProp 𝕄) := by
  have h : ∀ d, (dat1 V c).before w t d = (dat1 V c).after w t := by
    fin_cases w <;> first | exact absurd rfl hw | exact (dat1 V c).before_in_eq_fetched _ rfl (fun _ => rfl) (fun _ _ _ => rfl) (fun _ => rfl) t
  simp only [h]
  exact BI.Entails.antisymm (show _ ⊢ (_ : sProp 𝕄) from by iintro ⟨%d, H⟩; iexact H) (show _ ⊢ (_ : sProp 𝕄) from by iintro H; iexists (dat1 V c).after w t; iexact H)

-- The run's writes cover the output block, so its contents afterwards do not depend on what it held.
theorem body_obligation1 (c : Dev nD) : BodyObligation (dat1 (F := F) V c) (defs₀ (F := F)) Variants.none () Set.univ := fun t => by
  rw [bigSep_W1, bigSep_W1]
  simp (disch := decide) only [↓ own_in1 V c t, dat1, out1_11]
  iintro ⟨HΦ, Ho, H0, H1, H2, H3, H4, H5, H6, H7, H8, H9, H10, ⟨%d11, H11⟩⟩
  iapply (kernelRun1 c (grid1.coords t) _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)).2 Set.univ _
  iframe H0 H1 H2 H3 H4 H5 H6 H7 H8 H9 H10
  isplitl [H11]; · iexists _; iexact H11
  iintro ⟨H0, H1, H2, H3, H4, H5, H6, H7, H8, H9, H10, ⟨%e11, H11⟩⟩
  iframe HΦ H0 H1 H2 H3 H4 H5 H6 H7 H8 H9 H10
  isplitl [Ho]; · iexact Ho
  unfold owns; iexists _; isplitr
  swap; · iexact H11
  ipureintro; exact View.read_writes_of_cover _ _ _ _ _ (cover1_11 c _ _ _ _ _ _ _ _ _ _ _ _ _ _ _ _ _ _ _ _ _ _ _ _ _ _ _ _ _ _ _ _ _ _ _ _)

end Regions

end Cert.KernelIdeal.Fr

end
-- ==== Proof.KI.Main.lean ====
import proofs.«401628_j66357244723446_2_alg».proof.Proof.KI.R0Frame
import proofs.«401628_j66357244723446_2_alg».proof.Proof.KI.R1Frame
import proofs.«401628_j66357244723446_2_alg».proof.Proof.Gen.KernelIdeal.Regions
import proofs.«401628_j66357244723446_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Fr

open Cert.KernelIdeal.Gen
open Idealize.ShloMosaic Idealize.ShloMosaic.TcCoe Idealize.ShloMosaic.Tactic
open Idealize.SL Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb
abbrev V2 : (c : Dev nD) → (b : Ref sig .tc) → Buf (Elt F) ((c : Thread nD τ).loc b) := fun c b => W2 m ρ c b

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N :=
  Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) :=
  Pipeline.withArrays_of_ne spec1 c _ _ b hb
abbrev V3 : (c : Dev nD) → (b : Ref sig .tc) → Buf (Elt F) ((c : Thread nD τ).loc b) := fun c b => W3 m ρ c b

/-- A reference other than the reshape's result and region 0's arrays holds its launch contents at region 0's exit. -/
theorem V2_of (c : Dev nD) (b : Ref sig .tc) (h : b ∉ hostOps0_W ∧ ∀ w, Pipeline.arrRef spec0 w ≠ b) :
    V2 m ρ c b = m ((c : Thread nD τ).loc b) :=
  (W2_of_ne m ρ c b h.2).trans (V1_of m c b h.1)
/-- An input window's array is never written: at region 1's exit it holds its entry contents. -/
theorem W3_in (c : Dev nD) (w : Fin cfg1.W) (h : (cfg1.win w).isOut = false) :
    W3 m ρ c (Proc.devRef .tc (Pipeline.arrRef spec1 w)) = V2 m ρ c (Pipeline.arrRef spec1 w) :=
  (W3_arr m ρ c w).trans (((dat1 (V2 m ρ) c).arrAt_in w h _).trans (A_eq1 (V2 m ρ) c w))

theorem V1_main_arg0 (c : Dev nD) : V1 m ρ c main_arg0 = m ((c : Thread nD τ).loc main_arg0) := V1_of m c _ (by decide)
theorem V1_main_v0 (c : Dev nD) :
    V1 m ρ c main_v0 = shapeCast S2048x1 (m ((c : Thread nD τ).loc main_arg1)) shapeCasts_S2048_S2048x1 := by
  show StableHlo.after hostOps0 (W0 m ρ c) (Proc.devRef .tc main_v0) = _
  after_results; rfl
theorem V2_main_v1 (c : Dev nD) : V2 m ρ c main_v1 = (dat0 (V1 m ρ) c).arrAt 2 cfg0.N := W2_arr m ρ c 2
theorem V2_main_arg2 (c : Dev nD) : V2 m ρ c main_arg2 = m ((c : Thread nD τ).loc main_arg2) := V2_of m ρ c _ (by decide)
theorem V2_main_arg3 (c : Dev nD) : V2 m ρ c main_arg3 = m ((c : Thread nD τ).loc main_arg3) := V2_of m ρ c _ (by decide)
theorem V2_main_arg4 (c : Dev nD) : V2 m ρ c main_arg4 = m ((c : Thread nD τ).loc main_arg4) := V2_of m ρ c _ (by decide)
theorem V2_main_arg5 (c : Dev nD) : V2 m ρ c main_arg5 = m ((c : Thread nD τ).loc main_arg5) := V2_of m ρ c _ (by decide)
theorem V2_main_arg6 (c : Dev nD) : V2 m ρ c main_arg6 = m ((c : Thread nD τ).loc main_arg6) := V2_of m ρ c _ (by decide)
theorem V2_main_arg7 (c : Dev nD) : V2 m ρ c main_arg7 = m ((c : Thread nD τ).loc main_arg7) := V2_of m ρ c _ (by decide)
theorem V2_main_arg8 (c : Dev nD) : V2 m ρ c main_arg8 = m ((c : Thread nD τ).loc main_arg8) := V2_of m ρ c _ (by decide)
theorem V2_main_arg9 (c : Dev nD) : V2 m ρ c main_arg9 = m ((c : Thread nD τ).loc main_arg9) := V2_of m ρ c _ (by decide)
theorem V2_main_arg10 (c : Dev nD) : V2 m ρ c main_arg10 = m ((c : Thread nD τ).loc main_arg10) := V2_of m ρ c _ (by decide)
theorem V2_main_arg11 (c : Dev nD) : V2 m ρ c main_arg11 = m ((c : Thread nD τ).loc main_arg11) := V2_of m ρ c _ (by decide)
theorem W3_main_arg0 (c : Dev nD) : W3 m ρ c (Proc.devRef .tc main_arg0) = m ((c : Thread nD τ).loc main_arg0) :=
  (W3_of_ne m ρ c _ (by decide)).trans <| (W2_arr m ρ c 0).trans <| ((dat0 (V1 m ρ) c).arrAt_in 0 rfl _).trans <|
    (A_eq0 (V1 m ρ) c 0).trans (V1_main_arg0 m ρ c)
theorem W3_main_arg1 (c : Dev nD) : W3 m ρ c (Proc.devRef .tc main_arg1) = m ((c : Thread nD τ).loc main_arg1) :=
  (W3_of_ne m ρ c _ (by decide)).trans (V2_of m ρ c _ (by decide))
theorem W3_main_arg2 (c : Dev nD) : W3 m ρ c (Proc.devRef .tc main_arg2) = m ((c : Thread nD τ).loc main_arg2) := (W3_in m ρ c 1 rfl).trans (V2_main_arg2 m ρ c)
theorem W3_main_arg3 (c : Dev nD) : W3 m ρ c (Proc.devRef .tc main_arg3) = m ((c : Thread nD τ).loc main_arg3) := (W3_in m ρ c 2 rfl).trans (V2_main_arg3 m ρ c)
theorem W3_main_arg4 (c : Dev nD) : W3 m ρ c (Proc.devRef .tc main_arg4) = m ((c : Thread nD τ).loc main_arg4) := (W3_in m ρ c 3 rfl).trans (V2_main_arg4 m ρ c)
theorem W3_main_arg5 (c : Dev nD) : W3 m ρ c (Proc.devRef .tc main_arg5) = m ((c : Thread nD τ).loc main_arg5) := (W3_in m ρ c 4 rfl).trans (V2_main_arg5 m ρ c)
theorem W3_main_arg6 (c : Dev nD) : W3 m ρ c (Proc.devRef .tc main_arg6) = m ((c : Thread nD τ).loc main_arg6) := (W3_in m ρ c 5 rfl).trans (V2_main_arg6 m ρ c)
theorem W3_main_arg7 (c : Dev nD) : W3 m ρ c (Proc.devRef .tc main_arg7) = m ((c : Thread nD τ).loc main_arg7) := (W3_in m ρ c 6 rfl).trans (V2_main_arg7 m ρ c)
theorem W3_main_arg8 (c : Dev nD) : W3 m ρ c (Proc.devRef .tc main_arg8) = m ((c : Thread nD τ).loc main_arg8) := (W3_in m ρ c 7 rfl).trans (V2_main_arg8 m ρ c)
theorem W3_main_arg9 (c : Dev nD) : W3 m ρ c (Proc.devRef .tc main_arg9) = m ((c : Thread nD τ).loc main_arg9) := (W3_in m ρ c 8 rfl).trans (V2_main_arg9 m ρ c)
theorem W3_main_arg10 (c : Dev nD) : W3 m ρ c (Proc.devRef .tc main_arg10) = m ((c : Thread nD τ).loc main_arg10) := (W3_in m ρ c 9 rfl).trans (V2_main_arg10 m ρ c)
theorem W3_main_arg11 (c : Dev nD) : W3 m ρ c (Proc.devRef .tc main_arg11) = m ((c : Thread nD τ).loc main_arg11) := (W3_in m ρ c 10 rfl).trans (V2_main_arg11 m ρ c)
theorem W3_main_v2 (c : Dev nD) : W3 m ρ c (Proc.devRef .tc main_v2) = (dat1 (V2 m ρ) c).arrAt 11 cfg1.N := W3_arr m ρ c 11

def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    unfold Pipeline.prefHeld Pipeline.Dat.owesAt Pipeline.owesWithin
    rw [show (Finset.univ : Finset (Fin 0)) = ∅ from rfl, BI.bigSep_empty]
    iintro ⟨⟨Hub, Hp, %W, HO⟩, -, -⟩
    ihave ⟨Ha, Hrest⟩ := hsplit $$ Hub
    imodintro
    iframe
    isplitr; · iempintro
    iexists W; isplitr; · ipureintro; exact fun _ _ => Or.inl trivial
    iexact HO
  hin c := by
    refine .trans ?_ (show Pipeline.ΦA spec0 c ⊢ (pdats m ρ 0 c).Φ 0 from hin0 (V1 m ρ) c)
    unfold Pipeline.ΦA
    iintro ⟨Hp, -, Hr⟩
    isplitl [Hr] <;> iassumption
  hout c := by
    rw [Pipeline.ownSems0_none]
    refine (show (pdats m ρ 0 c).Φ (Fin.last _) ⊢ Pipeline.ΦA spec0 c from hout0 (V1 m ρ) c).trans ?_
    unfold Pipeline.ΦA
    iintro ⟨Hr, Hp⟩
    iframe
    iempintro
  hexit c := by
    have hjoin := Pipeline.unscopedBufs_of_arrays (p := 0) (pcfgs (F := F)) adm
      launch0.win launch0.arr_whole c (pdats m ρ) ((pdats m ρ 0 c).share_full fun _ => rfl)
      (V1 m ρ c) (V2 m ρ c) ((pdats m ρ 0 c).arrAt · cfg0.N) (fun w => (W2_arr m ρ c w).symm)
      (fun b hb => W2_of_ne m ρ c b fun w e => hb (Finset.mem_image.mpr ⟨w, Finset.mem_univ _, e⟩))
    rw [Pipeline.unscopedBufs_held] at hjoin
    unfold Pipeline.Dat.owesAt Pipeline.owesWithin
    iintro ⟨Ha, ⟨%W, -, HO⟩, HY, Hrest⟩
    imodintro
    isplitl [Ha Hrest]
    · iapply hjoin; iframe
    isplitl [HY]; · iexact HY
    iexists W; iexact HO

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    unfold Pipeline.prefHeld Pipeline.Dat.owesAt Pipeline.owesWithin
    rw [show (Finset.univ : Finset (Fin 0)) = ∅ from rfl, BI.bigSep_empty]
    iintro ⟨⟨Hub, Hp, %W, HO⟩, -, -⟩
    ihave ⟨Ha, Hrest⟩ := hsplit $$ Hub
    imodintro
    iframe
    isplitr; · iempintro
    iexists W; isplitr; · ipureintro; exact fun _ _ => Or.inl trivial
    iexact HO
  hin c := by
    rw [show (pdats m ρ 1 c).Φ 0 = Pipeline.ΦA spec1 c from rfl]; unfold Pipeline.ΦA
    iintro ⟨Hp, -, Hr⟩
    isplitl [Hr] <;> iassumption
  hout c := by
    rw [Pipeline.ownSems0_none, show (pdats m ρ 1 c).Φ (Fin.last _) = Pipeline.ΦA spec1 c from rfl]; unfold Pipeline.ΦA
    iintro ⟨Hr, Hp⟩
    iframe
    iempintro
  hexit c := by
    have hjoin := Pipeline.unscopedBufs_of_arrays (p := 1) (pcfgs (F := F)) adm
      launch1.win launch1.arr_whole c (pdats m ρ) ((pdats m ρ 1 c).share_full fun _ => rfl)
      (V2 m ρ c) (V3 m ρ c) ((pdats m ρ 1 c).arrAt · cfg1.N) (fun w => (W3_arr m ρ c w).symm)
      (fun b hb => W3_of_ne m ρ c b fun w e => hb (Finset.mem_image.mpr ⟨w, Finset.mem_univ _, e⟩))
    rw [Pipeline.unscopedBufs_held] at hjoin
    unfold Pipeline.Dat.owesAt Pipeline.owesWithin
    iintro ⟨Ha, ⟨%W, -, HO⟩, HY, Hrest⟩
    imodintro
    isplitl [Ha Hrest]
    · iapply hjoin; iframe
    isplitl [HY]; · iexact HY
    iexists W; iexact HO

abbrev segs : List (Pipeline.Seg (pcfgs (F := F)) adm (pdats m ρ) () defs₀ 𝒱₀ L lv) :=
  [.host (seg0 m 𝒱₀ L lv fun _ => R), .region (reg0 m ρ), .region (reg1 m ρ)]

theorem run_all : θ_run defs (onTc (τ := τ) (main (F := F))) ⟨m, fun _ => 0, ρ⟩ (fun r => ∀ c : Dev nD,
      ∀ b ∈ Pipeline.ucRefs τ sig, r.2.mem ((c : Thread nD τ).1, b) = W3 m ρ c b) :=
  Pipeline.θ_run_regions_kit (pcfgs (F := F)) adm (pdats m ρ) () cellOf_inj emb₁ defs₀ 𝒱₀ L lv m ρ main (segs m ρ)
    (fun c Q => by rw [show main (F := F) c = Pipeline.Seg.run (segs m ρ) from (main_chain c).trans (by chain_rfl)])
    (by simp only [segs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [BI.bigSep_emp_const]
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W3 m ρ c) ∗ ∃ r, prngReg c r))
    (hch := ⟨fun _ => .rfl, fun _ => .rfl, fun _ => .rfl, fun _ => sep_assoc'⟩)
    (hinit := by
      refine Pipeline.initEach L lv fun c => ?_
      rw [← Pipeline.unscopedBufs_held]
      iintro ⟨⟨Hh, -, HO, -, Hp, -⟩, -⟩
      imodintro
      iframe
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all _ (fun b => ((c : Thread nD τ).1, b)) (W3 m ρ c) s')
      iframe)
    (hQ := fun s h c => h c)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => by
    refine ⟨?_, ?_, ?_, ?_, ?_, ?_, ?_, ?_, ?_, ?_, ?_, ?_⟩ <;> refine (h c _ (mem_uc _ (by decide))).trans ?_
    exacts [W3_main_arg0 m ρ c, W3_main_arg1 m ρ c, W3_main_arg2 m ρ c, W3_main_arg3 m ρ c, W3_main_arg4 m ρ c,
      W3_main_arg5 m ρ c, W3_main_arg6 m ρ c, W3_main_arg7 m ρ c, W3_main_arg8 m ρ c, W3_main_arg9 m ρ c,
      W3_main_arg10 m ρ c, W3_main_arg11 m ρ c]) (run_all m ρ)

end Cert.KernelIdeal.Fr

end
-- ==== Proof.KI.R0Pieces.lean ====
import proofs.«401628_j66357244723446_2_alg».proof.Proof.KI.R0Frame
import Idealize.ShloMosaic.Lib.Pipeline.Value
import Idealize.ShloMosaic.Lib.Tactic

set_option maxRecDepth 16384

noncomputable section

namespace Cert.KernelIdeal.Val.R0

open Cert.KernelIdeal Cert.KernelIdeal.Gen Cert.KernelIdeal.Fr
open Idealize.ShloMosaic Idealize.ShloMosaic.TcCoe Idealize.ShloMosaic.Tactic Idealize.SL.Sem
open Idealize.ShloMosaic.Pipeline (Dat)

variable {F : FTy → Type} [FloatOps F]

theorem hz2 : (![0, 0] : Fin 2 → Nat) = fun _ => 0 := funext fun a => by fin_cases a <;> rfl

theorem hz3 : (![0, 0, 0] : Fin 3 → Nat) = fun _ => 0 := funext fun a => by fin_cases a <;> rfl

/-- The three slices the last tile stores, over the accumulators' new contents: the picked last step, the deviation, the mean. -/
abbrev outPieces (i : grid0.Coords) (x0 : Vec F S256x128x32 .f32) (x1 : Vec F S256x1 .i32) (xs0 xs1 xs2 : Vec F S256x32 .f32) :
    List (View.Piece (Elt F) S256x96 .f32) :=
  [⟨Rect.unit ![0, 64] ![256, 32] inb_S256x96_S256x32_0_64, k0_pay2 (k0_pay11 i x1) x0 xs2⟩,
   ⟨Rect.unit ![0, 32] ![256, 32] inb_S256x96_S256x32_0_32, k0_pay5 x1 (k0_pay1 (k0_pay14 i x1 x0 xs1)) (k0_pay13 i x1 x0 xs0)⟩,
   ⟨Rect.unit ![0, 0] ![256, 32] inb_S256x96_S256x32_0_0, k0_pay4 x1 (k0_pay13 i x1 x0 xs0)⟩]

/-- The three slices tile the block. -/
theorem outC_cover (i : grid0.Coords) (x0 : Vec F S256x128x32 .f32) (x1 : Vec F S256x1 .i32) (xs0 xs1 xs2 : Vec F S256x32 .f32) (y : S256x96.Idx) :
    ∃ p ∈ outPieces i x0 x1 xs0 xs1 xs2, y ∈ p.1.set :=
  View.cover_of_tiledL (s := S256x96) _ S256x32.size (by sl_kernel_rfl) y

section
variable (c : Dev nD) (i : grid0.Coords) (arg2 : Memref sig .tc .vmem S256x128x32 .f32) (harg2 : arg2.IsWhole) (arg3 : Memref sig .tc .vmem S256x1 .i32) (harg3 : arg3.IsWhole) (arg4 : Memref sig .tc .vmem S256x96 .f32) (harg4 : arg4.IsWhole) (arg5 : Memref sig .tc .vmem S256x32 .f32) (harg5 : arg5.IsWhole) (arg6 : Memref sig .tc .vmem S256x32 .f32) (harg6 : arg6.IsWhole) (arg7 : Memref sig .tc .vmem S256x32 .f32) (harg7 : arg7.IsWhole)

/-- At a row block's first tile each accumulator is the tile's update of zero. -/
theorem soutA (hc0 : cond0_0 i) (hc1 : ¬cond0_1 i) (x0 : Vec F S256x128x32 .f32) (x1 : Vec F S256x1 .i32) :
    (rb4 (kernelRun0_A c i arg2 harg2 arg3 harg3 arg4 harg4 arg5 harg5 arg6 harg6 arg7 harg7 hc0 hc1 x0 x1)).2 = (k0_pay13 i x1 x0 (k0_pay6 (F := F)), k0_pay1 (k0_pay14 i x1 x0 (k0_pay7 (F := F))), k0_pay2 (k0_pay11 i x1) x0 (k0_pay8 (F := F))) := by
  unfold rb4; dsimp only
  rw [View.read_writes_eq_canon _ _ _ (scover0_A_0 c i arg2 harg2 arg3 harg3 arg4 harg4 arg5 harg5 arg6 harg6 arg7 harg7 hc0 hc1 x0 x1), View.read_writes_eq_canon _ _ _ (scover0_A_1 c i arg2 harg2 arg3 harg3 arg4 harg4 arg5 harg5 arg6 harg6 arg7 harg7 hc0 hc1 x0 x1), View.read_writes_eq_canon _ _ _ (scover0_A_2 c i arg2 harg2 arg3 harg3 arg4 harg4 arg5 harg5 arg6 harg6 arg7 harg7 hc0 hc1 x0 x1)]
  unfold kernelRun0_A; dsimp only; sl_unfold_words
  simp only [View.canon_cons_unit_zero (S := S256x32) hz2, View.readAt_eq_ld, harg2.read_unread, harg3.read_unread, harg5.read_unread, harg6.read_unread, harg7.read_unread, View.ld_unit_zero (S := S256x32) hz2, View.ld_unit_zero (S := S256x1) hz2, View.ld_unit_zero (S := S256x128x32) hz3, View.readCov_unit_zero (S := S256x32) _ hz2]

/-- At the tiles between, the tile's update of what the accumulator held. -/
theorem soutB (hc0 : ¬cond0_0 i) (hc1 : ¬cond0_1 i) (x0 : Vec F S256x128x32 .f32) (x1 : Vec F S256x1 .i32) (xs0 xs1 xs2 : Vec F S256x32 .f32) :
    (rb4 (kernelRun0_B c i arg2 harg2 arg3 harg3 arg4 harg4 arg5 harg5 arg6 harg6 arg7 harg7 hc0 hc1 x0 x1 xs0 xs1 xs2)).2 = (k0_pay13 i x1 x0 xs0, k0_pay1 (k0_pay14 i x1 x0 xs1), k0_pay2 (k0_pay11 i x1) x0 xs2) := by
  unfold rb4; dsimp only
  rw [View.read_writes_eq_canon _ _ _ (scover0_B_0 c i arg2 harg2 arg3 harg3 arg4 harg4 arg5 harg5 arg6 harg6 arg7 harg7 hc0 hc1 x0 x1 xs0 xs1 xs2), View.read_writes_eq_canon _ _ _ (scover0_B_1 c i arg2 harg2 arg3 harg3 arg4 harg4 arg5 harg5 arg6 harg6 arg7 harg7 hc0 hc1 x0 x1 xs0 xs1 xs2), View.read_writes_eq_canon _ _ _ (scover0_B_2 c i arg2 harg2 arg3 harg3 arg4 harg4 arg5 harg5 arg6 harg6 arg7 harg7 hc0 hc1 x0 x1 xs0 xs1 xs2)]
  unfold kernelRun0_B; dsimp only; sl_unfold_words
  simp only [View.canon_unit_zero (S := S256x32) hz2, View.readAt_eq_ld, harg2.read_unread, harg3.read_unread, harg5.read_unread, harg6.read_unread, harg7.read_unread, View.ld_unit_zero (S := S256x32) hz2, View.ld_unit_zero (S := S256x1) hz2, View.ld_unit_zero (S := S256x128x32) hz3]

/-- At the last tile the same update, and the output block is the three slices over the new contents. -/
theorem soutC (hc0 : ¬cond0_0 i) (hc1 : cond0_1 i) (x0 : Vec F S256x128x32 .f32) (x1 : Vec F S256x1 .i32) (xs0 xs1 xs2 : Vec F S256x32 .f32) :
    rb4 (kernelRun0_C c i arg2 harg2 arg3 harg3 arg4 harg4 arg5 harg5 arg6 harg6 arg7 harg7 hc0 hc1 x0 x1 xs0 xs1 xs2) = (View.canon (outPieces i x0 x1 xs0 xs1 xs2), k0_pay13 i x1 x0 xs0, k0_pay1 (k0_pay14 i x1 x0 xs1), k0_pay2 (k0_pay11 i x1) x0 xs2) := by
  unfold rb4; dsimp only
  rw [View.read_writes_eq_canon _ _ _ (cover0_C_2 c i arg2 harg2 arg3 harg3 arg4 harg4 arg5 harg5 arg6 harg6 arg7 harg7 hc0 hc1 x0 x1 xs0 xs1 xs2), View.read_writes_eq_canon _ _ _ (scover0_C_0 c i arg2 harg2 arg3 harg3 arg4 harg4 arg5 harg5 arg6 harg6 arg7 harg7 hc0 hc1 x0 x1 xs0 xs1 xs2), View.read_writes_eq_canon _ _ _ (scover0_C_1 c i arg2 harg2 arg3 harg3 arg4 harg4 arg5 harg5 arg6 harg6 arg7 harg7 hc0 hc1 x0 x1 xs0 xs1 xs2), View.read_writes_eq_canon _ _ _ (scover0_C_2 c i arg2 harg2 arg3 harg3 arg4 harg4 arg5 harg5 arg6 harg6 arg7 harg7 hc0 hc1 x0 x1 xs0 xs1 xs2)]
  unfold kernelRun0_C; dsimp only; sl_unfold_words
  simp only [View.canon_unit_zero (S := S256x32) hz2, View.readAt_eq_ld, harg2.read_unread, harg3.read_unread, harg5.read_unread, harg6.read_unread, harg7.read_unread, View.ld_unit_zero (S := S256x32) hz2, View.ld_unit_zero (S := S256x1) hz2, View.ld_unit_zero (S := S256x128x32) hz3, View.readCov_unit_zero (S := S256x32) _ hz2]

end

end Cert.KernelIdeal.Val.R0

end
-- ==== Proof.KI.R0Pay.lean ====
import proofs.«401628_j66357244723446_2_alg».proof.Proof.Gen.KernelIdeal.Skeleton
import proofs.«401628_j66357244723446_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Val

open Idealize.ShloMosaic Idealize.ShloMosaic.ValueIdx Cert.KernelIdeal Cert.KernelIdeal.Gen

theorem toInt_ofNat_small (n : ℕ) (hn : n < 2147483648) : (BitVec.ofNat 32 n).toInt = (n : ℤ) := by
  have h1 : (BitVec.ofNat 32 n).toNat = n := by rw [BitVec.toNat_ofNat]; omega
  rw [BitVec.toInt_eq_toNat_of_lt (by rw [h1]; omega), h1]

theorem bit_to_real (p : Bool) : ((((BitVec.ofBool p).setWidth 32).toInt : ℝ) : EReal) = if p then 1 else 0 := by
  cases p
  · have h : ((BitVec.ofBool false).setWidth 32).toInt = 0 := by decide
    rw [h]; simp
  · have h : ((BitVec.ofBool true).setWidth 32).toInt = 1 := by decide
    rw [h]; simp

theorem time_apply (i : grid0.Coords) (r : Fin 256) (tt : Fin 128) :
    k0_pay9 i (ix2 r tt) = BitVec.ofNat 32 ((i 1).val * 128 + tt.val) := by
  unfold Gen.k0_pay9
  show (Scalar.muli (BitVec.ofNat 32 (i 1).val) 128#32) + iota .tc S256x128 32 [1] iota_S256x128_d1_w32 (ix2 r tt) = _
  rw [iota_single_apply]
  show BitVec.ofNat 32 (i 1).val * BitVec.ofNat 32 128 + BitVec.ofNat 32 tt.val = _
  rw [BitVec.ofNat_mul_ofNat, BitVec.ofNat_add_ofNat]

theorem time_lt (i : grid0.Coords) (tt : Fin 128) : (i 1).val * 128 + tt.val < 2048 := by
  have h1 : (i 1).val < 16 := (i 1).isLt
  have h2 := tt.isLt
  omega

theorem time_toInt (i : grid0.Coords) (r : Fin 256) (tt : Fin 128) :
    (k0_pay9 i (ix2 r tt)).toInt = (((i 1).val * 128 + tt.val : ℕ) : ℤ) := by
  rw [time_apply]
  exact toInt_ofNat_small _ (by have := time_lt i tt; omega)

theorem lenRow_apply (v7 : Vec Ideal S256x1 .i32) (r : Fin 256) (tt : Fin 128) :
    broadcastTo S256x128 (k0_pay10 (F := Ideal) v7) broadcasts_S256x1_S256x128 (ix2 r tt) = v7 (ix2 r 0) := by
  refine (broadcastTo_apply _ _ (ix2 r tt) (ix2 r 0) ?_).trans ?_
  · intro a; match a with | ⟨0, _⟩ => rfl | ⟨1, _⟩ => rfl
  · unfold Gen.k0_pay10; rw [shapeCast_self]

theorem mask_apply (i : grid0.Coords) (v7 : Vec Ideal S256x1 .i32) (r : Fin 256) (tt : Fin 128) :
    k0_pay12 (F := Ideal) i v7 (ix3 r tt 0)
      = Cert.Spec.ind ((((i 1).val * 128 + tt.val : ℕ) : ℤ) < (v7 (ix2 r 0)).toInt) := by
  unfold Gen.k0_pay12
  refine (shapeCast_apply _ shapeCasts_S256x128_S256x128x1 (ix3 r tt 0) (ix2 r tt) ?_).trans ?_
  · rw [Shape.rowMajor_val_two, Shape.rowMajor_val_three]
    show r.val * 128 + tt.val = (r.val * 128 + tt.val) * 1 + 0
    omega
  · show ((((BitVec.ofBool ((k0_pay9 i (ix2 r tt)).slt
        (broadcastTo S256x128 (k0_pay10 (F := Ideal) v7) broadcasts_S256x1_S256x128 (ix2 r tt)))).setWidth 32).toInt : ℝ) : EReal) = _
    rw [bit_to_real, lenRow_apply, BitVec.slt_eq_decide, time_toInt]
    unfold Cert.Spec.ind
    simp only [decide_eq_true_eq]

theorem laneSum_apply (v : FVec Ideal S256x128x32 .f32) (r : Fin 256) (d : Fin 32) :
    multiReduction (F := Ideal) .add [1] S256x32 v 0x00000000#32 reduces_S256x128x32_S256x32 (.inl rfl) rfl (ix2 r d)
      = ∑ tt : Fin 128, v (ix3 r tt d) := by
  refine (Ideal.multiReduction_add_single v 0x00000000#32 reduces_S256x128x32_S256x32 (.inl rfl) rfl (ix2 r d)).trans ?_
  refine Finset.sum_congr rfl fun tt _ => congrArg v ?_
  funext a
  apply Fin.ext
  match a with
  | ⟨0, _⟩ => rfl
  | ⟨1, _⟩ => rfl
  | ⟨2, _⟩ => rfl

theorem spread_apply (m : FVec Ideal S256x128x1 .f32) (r : Fin 256) (tt : Fin 128) (d : Fin 32) :
    broadcastTo S256x128x32 m broadcasts_S256x128x1_S256x128x32 (ix3 r tt d) = m (ix3 r tt 0) := by
  refine broadcastTo_apply _ _ (ix3 r tt d) (ix3 r tt 0) ?_
  intro a; match a with | ⟨0, _⟩ => rfl | ⟨1, _⟩ => rfl | ⟨2, _⟩ => rfl

theorem pay6_apply (r : Fin 256) (d : Fin 32) : k0_pay6 (F := Ideal) (ix2 r d) = 0 := by
  unfold Gen.k0_pay6
  refine (congrFun (shapeCast_self _ _) (ix2 r d)).trans ?_
  exact Ideal.ofBits_zero_f32

theorem pay7_apply (r : Fin 256) (d : Fin 32) : k0_pay7 (F := Ideal) (ix2 r d) = 0 := by
  unfold Gen.k0_pay7
  refine (congrFun (shapeCast_self _ _) (ix2 r d)).trans ?_
  exact Ideal.ofBits_zero_f32

theorem pay8_apply (r : Fin 256) (d : Fin 32) : k0_pay8 (F := Ideal) (ix2 r d) = 0 := by
  unfold Gen.k0_pay8
  refine (congrFun (shapeCast_self _ _) (ix2 r d)).trans ?_
  exact Ideal.ofBits_zero_f32

theorem pay13_apply (i : grid0.Coords) (v7 : Vec Ideal S256x1 .i32) (v19 : Vec Ideal S256x128x32 .f32)
    (s : Vec Ideal S256x32 .f32) (r : Fin 256) (d : Fin 32) :
    k0_pay13 (F := Ideal) i v7 v19 s (ix2 r d)
      = s (ix2 r d) + ∑ tt : Fin 128, v19 (ix3 r tt d)
          * Cert.Spec.ind ((((i 1).val * 128 + tt.val : ℕ) : ℤ) < (v7 (ix2 r 0)).toInt) := by
  unfold Gen.k0_pay13
  refine (congrFun (shapeCast_self _ _) (ix2 r d)).trans ?_
  refine (addf_apply _ _ _).trans ?_
  refine congrArg (s (ix2 r d) + ·) ?_
  refine (laneSum_apply _ r d).trans ?_
  refine Finset.sum_congr rfl fun tt _ => ?_
  refine (mulf_apply _ _ _).trans ?_
  refine congrArg (v19 (ix3 r tt d) * ·) ?_
  exact (spread_apply _ r tt d).trans (mask_apply i v7 r tt)

theorem pay14_apply (i : grid0.Coords) (v7 : Vec Ideal S256x1 .i32) (v19 : Vec Ideal S256x128x32 .f32)
    (s : Vec Ideal S256x32 .f32) (r : Fin 256) (d : Fin 32) :
    k0_pay14 (F := Ideal) i v7 v19 s (ix2 r d)
      = s (ix2 r d) + ∑ tt : Fin 128, (v19 (ix3 r tt d) * v19 (ix3 r tt d))
          * Cert.Spec.ind ((((i 1).val * 128 + tt.val : ℕ) : ℤ) < (v7 (ix2 r 0)).toInt) := by
  unfold Gen.k0_pay14
  refine (addf_apply _ _ _).trans ?_
  refine congrArg (s (ix2 r d) + ·) ?_
  refine (laneSum_apply _ r d).trans ?_
  refine Finset.sum_congr rfl fun tt _ => ?_
  refine (mulf_apply _ _ _).trans ?_
  refine congrArg ((v19 (ix3 r tt d) * v19 (ix3 r tt d)) * ·) ?_
  exact (spread_apply _ r tt d).trans (mask_apply i v7 r tt)

theorem pay1_eq (v : FVec Ideal S256x32 .f32) : k0_pay1 (F := Ideal) v = v := by
  unfold Gen.k0_pay1
  exact shapeCast_self _ _

theorem pay1_apply (v : FVec Ideal S256x32 .f32) (r : Fin 256) (d : Fin 32) :
    k0_pay1 (F := Ideal) v (ix2 r d) = v (ix2 r d) := congrFun (pay1_eq v) _

theorem addLane_apply (m : FVec Ideal S256x128 .f32) (r : Fin 256) (tt : Fin 128) :
    shapeCast S256x128x1 m shapeCasts_S256x128_S256x128x1 (ix3 r tt 0) = m (ix2 r tt) := by
  refine shapeCast_apply _ shapeCasts_S256x128_S256x128x1 (ix3 r tt 0) (ix2 r tt) ?_
  rw [Shape.rowMajor_val_two, Shape.rowMajor_val_three]
  show r.val * 128 + tt.val = (r.val * 128 + tt.val) * 1 + 0
  omega

theorem lenPredRow_apply (v7 : Vec Ideal S256x1 .i32) (r : Fin 256) (tt : Fin 128) :
    broadcastTo S256x128 (subi (k0_pay10 (F := Ideal) v7) (broadcast S256x1 1#32)) broadcasts_S256x1_S256x128 (ix2 r tt)
      = v7 (ix2 r 0) - 1#32 := by
  refine (broadcastTo_apply _ _ (ix2 r tt) (ix2 r 0) ?_).trans ?_
  · intro a; match a with | ⟨0, _⟩ => rfl | ⟨1, _⟩ => rfl
  · show k0_pay10 (F := Ideal) v7 (ix2 r 0) - 1#32 = _
    unfold Gen.k0_pay10; rw [shapeCast_self]

theorem word_eq_pred_iff (n : ℕ) (hn : n < 2048) (x : BitVec 32) :
    (BitVec.ofNat 32 n = x - 1#32) ↔ ((n : ℤ) = x.toInt - 1) := by
  rw [← BitVec.toInt_inj, toInt_ofNat_small n (by omega), BitVec.toInt_sub]
  have h1 : (1#32 : BitVec 32).toInt = 1 := by decide
  rw [h1]
  have hlo := BitVec.le_toInt x
  have hhi := BitVec.toInt_lt (x := x)
  rw [Int.bmod_def]
  split <;> omega

theorem lastMask_apply (i : grid0.Coords) (v7 : Vec Ideal S256x1 .i32) (r : Fin 256) (tt : Fin 128) :
    k0_pay11 (F := Ideal) i v7 (ix2 r tt)
      = Cert.Spec.ind ((((i 1).val * 128 + tt.val : ℕ) : ℤ) = (v7 (ix2 r 0)).toInt - 1) := by
  unfold Gen.k0_pay11
  show ((((BitVec.ofBool ((k0_pay9 i (ix2 r tt)) ==
      (broadcastTo S256x128 (subi (k0_pay10 (F := Ideal) v7) (broadcast S256x1 1#32)) broadcasts_S256x1_S256x128 (ix2 r tt)))).setWidth 32).toInt : ℝ) : EReal) = _
  rw [bit_to_real, lenPredRow_apply, time_apply]
  unfold Cert.Spec.ind
  by_cases h : ((((i 1).val * 128 + tt.val : ℕ) : ℤ) = (v7 (ix2 r 0)).toInt - 1)
  · rw [if_pos h, if_pos]
    exact beq_iff_eq.2 ((word_eq_pred_iff _ (time_lt i tt) _).2 h)
  · rw [if_neg h, if_neg]
    exact fun hb => h ((word_eq_pred_iff _ (time_lt i tt) _).1 (beq_iff_eq.1 hb))

theorem pay2_apply (i : grid0.Coords) (v7 : Vec Ideal S256x1 .i32) (v19 : Vec Ideal S256x128x32 .f32)
    (s : Vec Ideal S256x32 .f32) (r : Fin 256) (d : Fin 32) :
    k0_pay2 (F := Ideal) (k0_pay11 i v7) v19 s (ix2 r d)
      = s (ix2 r d) + ∑ tt : Fin 128, v19 (ix3 r tt d)
          * Cert.Spec.ind ((((i 1).val * 128 + tt.val : ℕ) : ℤ) = (v7 (ix2 r 0)).toInt - 1) := by
  unfold Gen.k0_pay2
  refine (congrFun (shapeCast_self _ _) (ix2 r d)).trans ?_
  refine (addf_apply _ _ _).trans ?_
  refine congrArg (s (ix2 r d) + ·) ?_
  refine (laneSum_apply _ r d).trans ?_
  refine Finset.sum_congr rfl fun tt _ => ?_
  refine (mulf_apply _ _ _).trans ?_
  refine congrArg (v19 (ix3 r tt d) * ·) ?_
  exact ((spread_apply _ r tt d).trans (addLane_apply _ r tt)).trans (lastMask_apply i v7 r tt)

theorem cnt_apply (v50 : Vec Ideal S256x1 .i32) (r : Fin 256) :
    k0_pay3 (F := Ideal) v50 (ix2 r 0) = (((v50 (ix2 r 0)).toInt : ℝ) : EReal) := by
  unfold Gen.k0_pay3
  show ((((shapeCast S256x1 v50 shapeCasts_S256x1_S256x1) (ix2 r 0)).toInt : ℝ) : EReal) = _
  rw [shapeCast_self]

theorem colRow_apply (c : FVec Ideal S256x1 .f32) (r : Fin 256) (d : Fin 32) :
    broadcastTo S256x32 c broadcasts_S256x1_S256x32 (ix2 r d) = c (ix2 r 0) := by
  refine broadcastTo_apply _ _ (ix2 r d) (ix2 r 0) ?_
  intro a; match a with | ⟨0, _⟩ => rfl | ⟨1, _⟩ => rfl

theorem pay4_apply (v50 : Vec Ideal S256x1 .i32) (s : Vec Ideal S256x32 .f32) (r : Fin 256) (d : Fin 32) :
    k0_pay4 (F := Ideal) v50 s (ix2 r d) = Ideal.div (s (ix2 r d)) (((v50 (ix2 r 0)).toInt : ℝ) : EReal) := by
  unfold Gen.k0_pay4
  refine (divf_apply _ _ _).trans ?_
  refine congrArg (Ideal.div (s (ix2 r d))) ?_
  exact (colRow_apply _ r d).trans (cnt_apply v50 r)

theorem pay5_apply (v50 : Vec Ideal S256x1 .i32) (s2 s1 : Vec Ideal S256x32 .f32) (r : Fin 256) (d : Fin 32) :
    k0_pay5 (F := Ideal) v50 s2 s1 (ix2 r d)
      = Ideal.sqrt (max (Ideal.div (s2 (ix2 r d) - Ideal.div (s1 (ix2 r d) * s1 (ix2 r d)) (((v50 (ix2 r 0)).toInt : ℝ) : EReal))
          ((((v50 (ix2 r 0)).toInt : ℝ) : EReal) - Cert.Spec.cone)) 0) := by
  unfold Gen.k0_pay5
  show Ideal.sqrt (max (Ideal.div (s2 (ix2 r d) - Ideal.div (s1 (ix2 r d) * s1 (ix2 r d))
        (broadcastTo S256x32 (k0_pay3 (F := Ideal) v50) broadcasts_S256x1_S256x32 (ix2 r d)))
      (broadcastTo S256x32 (subf (k0_pay3 (F := Ideal) v50) (broadcast S256x1 (Scalar.ofBits (F := Ideal) .f32 0x3F800000#32)))
        broadcasts_S256x1_S256x32 (ix2 r d))) (Ideal.ofBits .f32 0x00000000#32)) = _
  rw [colRow_apply, colRow_apply, Ideal.ofBits_zero_f32]
  show Ideal.sqrt (max (Ideal.div (s2 (ix2 r d) - Ideal.div (s1 (ix2 r d) * s1 (ix2 r d)) (k0_pay3 (F := Ideal) v50 (ix2 r 0)))
      (k0_pay3 (F := Ideal) v50 (ix2 r 0) - Ideal.ofBits .f32 0x3F800000#32)) 0) = _
  rw [cnt_apply]
  rfl

end Cert.KernelIdeal.Val

end
-- ==== Proof.KI.R0Value.lean ====
/- The statistics kernel's output array on the extended reals. Grid point t handles row block t / 16 and time tile t % 16; by
   induction on the point the accumulators hold, after point t, the masked sum, the masked sum of squares and the picked last
   step over the first (t % 16 + 1)·128 time steps. At a last tile these are whole sums, the three slices stored are the rows of
   statistics, and the last tiles' blocks cover the array. -/
import proofs.«401628_j66357244723446_2_alg».proof.Proof.KI.R0Pieces
import Idealize.ShloMosaic.Lib.Pipeline.Value
import Idealize.ShloMosaic.Lib.Tactic
import proofs.«401628_j66357244723446_2_alg».proof.Proof.KI.R0Pay
import Mathlib.Algebra.BigOperators.Intervals

set_option maxRecDepth 16384

noncomputable section

namespace Cert.KernelIdeal.Val.R0

open Cert.KernelIdeal Cert.KernelIdeal.Gen Cert.KernelIdeal.Fr
open Idealize.ShloMosaic Idealize.ShloMosaic.TcCoe Idealize.ShloMosaic.Tactic Idealize.SL.Sem
open Idealize.ShloMosaic.Pipeline (Dat)

variable {F : FTy → Type} [FloatOps F]

open scoped BigOperators
open Idealize.ShloMosaic.ValueIdx

theorem sum_tiles {M : Type*} [AddCommMonoid M] (g : ℕ → M) (K : ℕ) :
    ∑ n ∈ Finset.range ((K + 1) * 128), g n
      = ∑ n ∈ Finset.range (K * 128), g n + ∑ tt : Fin 128, g (K * 128 + tt.val) := by
  rw [show (K + 1) * 128 = K * 128 + 128 by ring, Finset.sum_range_add]
  exact congrArg _ (Finset.sum_range fun x => g (K * 128 + x))

theorem acc_close {M : Type*} [AddCommMonoid M] (g : ℕ → M) (K : ℕ) (prev new : M)
    (hp : prev = ∑ m ∈ Finset.range (K * 128), g m) (hn : new = prev + ∑ tt : Fin 128, g (K * 128 + tt.val)) :
    new = ∑ m ∈ Finset.range ((K + 1) * 128), g m := by
  rw [hn, hp, sum_tiles]

def rowOf (n : ℕ) (r : Fin 256) : Fin 2048 := ⟨(256 * (n / 16) + r.val) % 2048, Nat.mod_lt _ (by decide)⟩

def stepOf (m : ℕ) : Fin 2048 := ⟨m % 2048, Nat.mod_lt _ (by decide)⟩

theorem stepOf_val (t : Fin 2048) : stepOf t.val = t := Fin.ext (Nat.mod_eq_of_lt t.isLt)

def g1 (x : Cert.Spec.SX.Idx → EReal) (ln : BitVec 32) (R : Fin 2048) (d : Fin 32) (m : ℕ) : EReal :=
  x (ix3 R (stepOf m) d) * Cert.Spec.ind ((m : ℤ) < ln.toInt)
def g2 (x : Cert.Spec.SX.Idx → EReal) (ln : BitVec 32) (R : Fin 2048) (d : Fin 32) (m : ℕ) : EReal :=
  (x (ix3 R (stepOf m) d) * x (ix3 R (stepOf m) d)) * Cert.Spec.ind ((m : ℤ) < ln.toInt)
def g3 (x : Cert.Spec.SX.Idx → EReal) (ln : BitVec 32) (R : Fin 2048) (d : Fin 32) (m : ℕ) : EReal :=
  x (ix3 R (stepOf m) d) * Cert.Spec.ind ((m : ℤ) = ln.toInt - 1)

variable (V : (c : Dev nD) → (b : Ref sig .tc) → Buf (Elt Ideal) ((c : Thread nD τ).loc b))

abbrev xarr (c : Dev nD) : Vec Ideal S2048x2048x32 .f32 := V c main_arg0
abbrev larr (c : Dev nD) : Vec Ideal S2048x1 .i32 := V c main_v0

abbrev xblk (c : Dev nD) (t : Fin cfg0.N) : Vec Ideal S256x128x32 .f32 := iblk0 V c 0 t
abbrev lblk (c : Dev nD) (t : Fin cfg0.N) : Vec Ideal S256x1 .i32 := iblk0 V c 1 t

theorem idx_facts : ∀ t : Fin cfg0.N, win0_0.index t (0 : Fin 3) = t.val / 16 ∧ win0_0.index t (1 : Fin 3) = t.val % 16
    ∧ win0_0.index t (2 : Fin 3) = 0 ∧ win0_1.index t (0 : Fin 2) = t.val / 16 ∧ win0_1.index t (1 : Fin 2) = 0
    ∧ win0_2.index t (0 : Fin 2) = t.val / 16 ∧ win0_2.index t (1 : Fin 2) = 0
    ∧ ((grid0.coords t) 1).val = t.val % 16 :=
  (by decide +kernel : ∀ t : Fin grid0.N, _)

theorem xblk_apply (c : Dev nD) (t : Fin cfg0.N) (r : Fin 256) (tt : Fin 128) (d : Fin 32) :
    xblk V c t (ix3 r tt d) = xarr V c (ix3 (rowOf t.val r) (stepOf (t.val % 16 * 128 + tt.val)) d) := by
  obtain ⟨e0, e1, e2, e3, e4, e5, e6, e7⟩ := idx_facts t
  have hN : t.val < 128 := lt_of_lt_of_eq t.isLt (show cfg0.N = 128 from N_0)
  show ((cfg0.win 0).blk t).view.read (Elt Ideal) (V c (Pipeline.arrRef spec0 0)) (ix3 r tt d) = _
  rw [View.read_apply]
  show V c main_arg0 _ = V c main_arg0 _
  refine congrArg (V c main_arg0) ?_
  funext a
  apply Fin.ext
  match a with
  | ⟨0, _⟩ =>
    show win0_0.index t (0 : Fin 3) * 256 + 1 * r.val = (256 * (t.val / 16) + r.val) % 2048
    rw [e0]; have := r.isLt; omega
  | ⟨1, _⟩ =>
    show win0_0.index t (1 : Fin 3) * 128 + 1 * tt.val = (t.val % 16 * 128 + tt.val) % 2048
    rw [e1]; have := tt.isLt; omega
  | ⟨2, _⟩ =>
    show win0_0.index t (2 : Fin 3) * 32 + 1 * d.val = d.val
    rw [e2]; omega

theorem lblk_apply (c : Dev nD) (t : Fin cfg0.N) (r : Fin 256) :
    lblk V c t (ix2 r 0) = larr V c (ix2 (rowOf t.val r) 0) := by
  obtain ⟨e0, e1, e2, e3, e4, e5, e6, e7⟩ := idx_facts t
  have hN : t.val < 128 := lt_of_lt_of_eq t.isLt (show cfg0.N = 128 from N_0)
  show ((cfg0.win 1).blk t).view.read (Elt Ideal) (V c (Pipeline.arrRef spec0 1)) (ix2 r 0) = _
  rw [View.read_apply]
  show V c main_v0 _ = V c main_v0 _
  refine congrArg (V c main_v0) ?_
  funext a
  apply Fin.ext
  match a with
  | ⟨0, _⟩ =>
    show win0_1.index t (0 : Fin 2) * 256 + 1 * r.val = (256 * (t.val / 16) + r.val) % 2048
    rw [e3]; have := r.isLt; omega
  | ⟨1, _⟩ =>
    show win0_1.index t (1 : Fin 2) * 1 + 1 * 0 = 0
    rw [e4]

theorem step1 (c : Dev nD) (t : Fin cfg0.N) (s : Vec Ideal S256x32 .f32) (r : Fin 256) (d : Fin 32) :
    k0_pay13 (F := Ideal) (grid0.coords t) (lblk V c t) (xblk V c t) s (ix2 r d)
      = s (ix2 r d) + ∑ tt : Fin 128, g1 (xarr V c) (larr V c (ix2 (rowOf t.val r) 0)) (rowOf t.val r) d (t.val % 16 * 128 + tt.val) := by
  obtain ⟨e0, e1, e2, e3, e4, e5, e6, e7⟩ := idx_facts t
  rw [pay13_apply]
  refine congrArg (s (ix2 r d) + ·) (Finset.sum_congr rfl fun tt _ => ?_)
  rw [xblk_apply, lblk_apply, e7]
  rfl

theorem step2 (c : Dev nD) (t : Fin cfg0.N) (s : Vec Ideal S256x32 .f32) (r : Fin 256) (d : Fin 32) :
    k0_pay1 (F := Ideal) (k0_pay14 (F := Ideal) (grid0.coords t) (lblk V c t) (xblk V c t) s) (ix2 r d)
      = s (ix2 r d) + ∑ tt : Fin 128, g2 (xarr V c) (larr V c (ix2 (rowOf t.val r) 0)) (rowOf t.val r) d (t.val % 16 * 128 + tt.val) := by
  obtain ⟨e0, e1, e2, e3, e4, e5, e6, e7⟩ := idx_facts t
  rw [pay1_apply, pay14_apply]
  refine congrArg (s (ix2 r d) + ·) (Finset.sum_congr rfl fun tt _ => ?_)
  rw [xblk_apply, lblk_apply, e7]
  rfl

theorem step3 (c : Dev nD) (t : Fin cfg0.N) (s : Vec Ideal S256x32 .f32) (r : Fin 256) (d : Fin 32) :
    k0_pay2 (F := Ideal) (k0_pay11 (F := Ideal) (grid0.coords t) (lblk V c t)) (xblk V c t) s (ix2 r d)
      = s (ix2 r d) + ∑ tt : Fin 128, g3 (xarr V c) (larr V c (ix2 (rowOf t.val r) 0)) (rowOf t.val r) d (t.val % 16 * 128 + tt.val) := by
  obtain ⟨e0, e1, e2, e3, e4, e5, e6, e7⟩ := idx_facts t
  rw [pay2_apply]
  refine congrArg (s (ix2 r d) + ·) (Finset.sum_congr rfl fun tt _ => ?_)
  rw [xblk_apply, lblk_apply, e7]
  rfl

/-- After grid point n the accumulators hold the sums over the first (n % 16 + 1)·128 steps of the point's rows. -/
def AccInv (c : Dev nD) (n : ℕ) (hn : n < cfg0.N) : Prop :=
  ∀ (r : Fin 256) (d : Fin 32),
    (outsAt0 V c n hn).2.1 (ix2 r d)
        = ∑ m ∈ Finset.range ((n % 16 + 1) * 128), g1 (xarr V c) (larr V c (ix2 (rowOf n r) 0)) (rowOf n r) d m
    ∧ (outsAt0 V c n hn).2.2.1 (ix2 r d)
        = ∑ m ∈ Finset.range ((n % 16 + 1) * 128), g2 (xarr V c) (larr V c (ix2 (rowOf n r) 0)) (rowOf n r) d m
    ∧ (outsAt0 V c n hn).2.2.2 (ix2 r d)
        = ∑ m ∈ Finset.range ((n % 16 + 1) * 128), g3 (xarr V c) (larr V c (ix2 (rowOf n r) 0)) (rowOf n r) d m

/-- At a row block's first tile each accumulator is the first tile's sum. -/
theorem inv_A (c : Dev nD) (t : Fin cfg0.N) (h0 : t.val % 16 = 0) : AccInv V c t.val t.isLt := by
  intro r d
  have h1 : ¬t.val % 16 = 15 := by omega
  rw [outsAt0_A V c t h0 h1, soutA (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t)]
  dsimp only
  refine ⟨acc_close _ (t.val % 16) 0 _ (by rw [h0]; simp) ((step1 V c t _ r d).trans ?_),
    acc_close _ (t.val % 16) 0 _ (by rw [h0]; simp) ((step2 V c t _ r d).trans ?_),
    acc_close _ (t.val % 16) 0 _ (by rw [h0]; simp) ((step3 V c t _ r d).trans ?_)⟩
  · rw [pay6_apply]
  · rw [pay7_apply]
  · rw [pay8_apply]

theorem inv_prev (c : Dev nD) (t : Fin cfg0.N) (h0 : ¬t.val % 16 = 0)
    (ih : AccInv V c (t.val - 1) (Nat.lt_of_le_of_lt (Nat.sub_le _ _) t.isLt)) (r : Fin 256) (d : Fin 32) :
    (prevAt V c t).1 (ix2 r d)
        = ∑ m ∈ Finset.range (t.val % 16 * 128), g1 (xarr V c) (larr V c (ix2 (rowOf t.val r) 0)) (rowOf t.val r) d m
    ∧ (prevAt V c t).2.1 (ix2 r d)
        = ∑ m ∈ Finset.range (t.val % 16 * 128), g2 (xarr V c) (larr V c (ix2 (rowOf t.val r) 0)) (rowOf t.val r) d m
    ∧ (prevAt V c t).2.2 (ix2 r d)
        = ∑ m ∈ Finset.range (t.val % 16 * 128), g3 (xarr V c) (larr V c (ix2 (rowOf t.val r) 0)) (rowOf t.val r) d m := by
  have hq : (t.val - 1) / 16 = t.val / 16 := by omega
  have hm : (t.val - 1) % 16 + 1 = t.val % 16 := by omega
  have hR : rowOf (t.val - 1) r = rowOf t.val r :=
    Fin.ext (by show (256 * ((t.val - 1) / 16) + r.val) % 2048 = (256 * (t.val / 16) + r.val) % 2048; rw [hq])
  have h := ih r d
  rw [hR, hm] at h
  exact h

theorem new1 (c : Dev nD) (t : Fin cfg0.N) (h0 : ¬t.val % 16 = 0)
    (ih : AccInv V c (t.val - 1) (Nat.lt_of_le_of_lt (Nat.sub_le _ _) t.isLt)) (r : Fin 256) (d : Fin 32) :
    k0_pay13 (F := Ideal) (grid0.coords t) (lblk V c t) (xblk V c t) (prevAt V c t).1 (ix2 r d)
      = ∑ m ∈ Finset.range ((t.val % 16 + 1) * 128), g1 (xarr V c) (larr V c (ix2 (rowOf t.val r) 0)) (rowOf t.val r) d m :=
  acc_close _ (t.val % 16) _ _ (inv_prev V c t h0 ih r d).1 (step1 V c t _ r d)

theorem new2 (c : Dev nD) (t : Fin cfg0.N) (h0 : ¬t.val % 16 = 0)
    (ih : AccInv V c (t.val - 1) (Nat.lt_of_le_of_lt (Nat.sub_le _ _) t.isLt)) (r : Fin 256) (d : Fin 32) :
    k0_pay1 (F := Ideal) (k0_pay14 (F := Ideal) (grid0.coords t) (lblk V c t) (xblk V c t) (prevAt V c t).2.1) (ix2 r d)
      = ∑ m ∈ Finset.range ((t.val % 16 + 1) * 128), g2 (xarr V c) (larr V c (ix2 (rowOf t.val r) 0)) (rowOf t.val r) d m :=
  acc_close _ (t.val % 16) _ _ (inv_prev V c t h0 ih r d).2.1 (step2 V c t _ r d)

theorem new3 (c : Dev nD) (t : Fin cfg0.N) (h0 : ¬t.val % 16 = 0)
    (ih : AccInv V c (t.val - 1) (Nat.lt_of_le_of_lt (Nat.sub_le _ _) t.isLt)) (r : Fin 256) (d : Fin 32) :
    k0_pay2 (F := Ideal) (k0_pay11 (F := Ideal) (grid0.coords t) (lblk V c t)) (xblk V c t) (prevAt V c t).2.2 (ix2 r d)
      = ∑ m ∈ Finset.range ((t.val % 16 + 1) * 128), g3 (xarr V c) (larr V c (ix2 (rowOf t.val r) 0)) (rowOf t.val r) d m :=
  acc_close _ (t.val % 16) _ _ (inv_prev V c t h0 ih r d).2.2 (step3 V c t _ r d)

/-- At every other tile each accumulator gains the tile's sum. -/
theorem inv_pos (c : Dev nD) (t : Fin cfg0.N) (h0 : ¬t.val % 16 = 0)
    (ih : AccInv V c (t.val - 1) (Nat.lt_of_le_of_lt (Nat.sub_le _ _) t.isLt)) : AccInv V c t.val t.isLt := by
  intro r d
  by_cases h1 : t.val % 16 = 15
  · rw [outsAt0_C V c t h0 h1, soutC (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (prevAt V c t).1 (prevAt V c t).2.1 (prevAt V c t).2.2]
    exact ⟨new1 V c t h0 ih r d, new2 V c t h0 ih r d, new3 V c t h0 ih r d⟩
  · rw [outsAt0_B V c t h0 h1, soutB (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (prevAt V c t).1 (prevAt V c t).2.1 (prevAt V c t).2.2]
    exact ⟨new1 V c t h0 ih r d, new2 V c t h0 ih r d, new3 V c t h0 ih r d⟩

theorem acc_inv (c : Dev nD) : ∀ (n : ℕ) (hn : n < cfg0.N), AccInv V c n hn := by
  intro n
  induction n with
  | zero => intro hn; exact inv_A V c ⟨0, hn⟩ rfl
  | succ n ih =>
    intro hn
    by_cases h0 : (n + 1) % 16 = 0
    · exact inv_A V c ⟨n + 1, hn⟩ h0
    · exact inv_pos V c ⟨n + 1, hn⟩ h0 (ih _)

abbrev lenOf (c : Dev nD) : Cert.Spec.SL.Idx → BitVec 32 := fun j => larr V c (ix2 (j 0) 0)

theorem g1_total (x : Cert.Spec.SX.Idx → EReal) (len : Cert.Spec.SL.Idx → BitVec 32) (R : Fin 2048) (d : Fin 32) :
    ∑ m ∈ Finset.range 2048, g1 x (len (ix1 R)) R d m = Cert.Spec.sum1 x len R d := by
  rw [Finset.sum_range]
  unfold Cert.Spec.sum1 Cert.Spec.msk g1
  refine Finset.sum_congr rfl fun τ _ => ?_
  rw [stepOf_val]

theorem g2_total (x : Cert.Spec.SX.Idx → EReal) (len : Cert.Spec.SL.Idx → BitVec 32) (R : Fin 2048) (d : Fin 32) :
    ∑ m ∈ Finset.range 2048, g2 x (len (ix1 R)) R d m = Cert.Spec.sum2 x len R d := by
  rw [Finset.sum_range]
  unfold Cert.Spec.sum2 Cert.Spec.msk g2
  refine Finset.sum_congr rfl fun τ _ => ?_
  rw [stepOf_val]

theorem g3_total (x : Cert.Spec.SX.Idx → EReal) (len : Cert.Spec.SL.Idx → BitVec 32) (R : Fin 2048) (d : Fin 32) :
    ∑ m ∈ Finset.range 2048, g3 x (len (ix1 R)) R d m = Cert.Spec.lastK x len R d := by
  rw [Finset.sum_range]
  unfold Cert.Spec.lastK Cert.Spec.lastMsk g3
  refine Finset.sum_congr rfl fun τ _ => ?_
  rw [stepOf_val]

theorem row3_lo (a s l : Fin 32 → EReal) (d : Fin 32) (q : Fin 96) (hq : q.val = d.val) : Cert.Spec.row3 a s l q = a d := by
  unfold Cert.Spec.row3
  rw [dif_pos (by have := d.isLt; omega)]
  exact congrArg a (Fin.ext hq)
theorem row3_mid (a s l : Fin 32 → EReal) (d : Fin 32) (q : Fin 96) (hq : q.val = 32 + d.val) : Cert.Spec.row3 a s l q = s d := by
  unfold Cert.Spec.row3
  rw [dif_neg (by omega), dif_pos (by have := d.isLt; omega)]
  exact congrArg s (Fin.ext (by show q.val - 32 = d.val; omega))
theorem row3_hi (a s l : Fin 32 → EReal) (d : Fin 32) (q : Fin 96) (hq : q.val = 64 + d.val) : Cert.Spec.row3 a s l q = l d := by
  unfold Cert.Spec.row3
  rw [dif_neg (by omega), dif_neg (by omega)]
  exact congrArg l (Fin.ext (by show q.val - 64 = d.val; omega))

theorem fin_mean (c : Dev nD) (t : Fin cfg0.N) (h0 : ¬t.val % 16 = 0) (h1 : t.val % 16 = 15) (r : Fin 256) (d : Fin 32)
    (q : Fin 96) (hq : q.val = d.val) (R : Fin 256) (hR : R.val = r.val) :
    k0_pay4 (F := Ideal) (lblk V c t) (k0_pay13 (F := Ideal) (grid0.coords t) (lblk V c t) (xblk V c t) (prevAt V c t).1) (ix2 r d)
      = Cert.Spec.featsKc (xarr V c) (lenOf V c) (rowOf t.val R) q := by
  obtain rfl : r = R := Fin.ext hR.symm
  have ih := acc_inv V c (t.val - 1) (Nat.lt_of_le_of_lt (Nat.sub_le _ _) t.isLt)
  have e : (t.val % 16 + 1) * 128 = 2048 := by omega
  rw [pay4_apply, new1 V c t h0 ih r d, lblk_apply, e]
  unfold Cert.Spec.featsKc
  rw [row3_lo _ _ _ d q hq]
  unfold Cert.Spec.mean Cert.Spec.cnt
  exact congrArg (fun s => Ideal.div s _) (g1_total (xarr V c) (lenOf V c) (rowOf t.val r) d)

theorem fin_std (c : Dev nD) (t : Fin cfg0.N) (h0 : ¬t.val % 16 = 0) (h1 : t.val % 16 = 15) (r : Fin 256) (d : Fin 32)
    (q : Fin 96) (hq : q.val = 32 + d.val) (R : Fin 256) (hR : R.val = r.val) :
    k0_pay5 (F := Ideal) (lblk V c t) (k0_pay1 (F := Ideal) (k0_pay14 (F := Ideal) (grid0.coords t) (lblk V c t) (xblk V c t) (prevAt V c t).2.1))
        (k0_pay13 (F := Ideal) (grid0.coords t) (lblk V c t) (xblk V c t) (prevAt V c t).1) (ix2 r d)
      = Cert.Spec.featsKc (xarr V c) (lenOf V c) (rowOf t.val R) q := by
  obtain rfl : r = R := Fin.ext hR.symm
  have ih := acc_inv V c (t.val - 1) (Nat.lt_of_le_of_lt (Nat.sub_le _ _) t.isLt)
  have e : (t.val % 16 + 1) * 128 = 2048 := by omega
  rw [pay5_apply, new1 V c t h0 ih r d, new2 V c t h0 ih r d, lblk_apply, e]
  unfold Cert.Spec.featsKc
  rw [row3_mid _ _ _ d q hq]
  unfold Cert.Spec.stdK Cert.Spec.cnt
  rw [← g1_total (xarr V c) (lenOf V c) (rowOf t.val r) d, ← g2_total (xarr V c) (lenOf V c) (rowOf t.val r) d]

theorem fin_last (c : Dev nD) (t : Fin cfg0.N) (h0 : ¬t.val % 16 = 0) (h1 : t.val % 16 = 15) (r : Fin 256) (d : Fin 32)
    (q : Fin 96) (hq : q.val = 64 + d.val) (R : Fin 256) (hR : R.val = r.val) :
    k0_pay2 (F := Ideal) (k0_pay11 (F := Ideal) (grid0.coords t) (lblk V c t)) (xblk V c t) (prevAt V c t).2.2 (ix2 r d)
      = Cert.Spec.featsKc (xarr V c) (lenOf V c) (rowOf t.val R) q := by
  obtain rfl : r = R := Fin.ext hR.symm
  have ih := acc_inv V c (t.val - 1) (Nat.lt_of_le_of_lt (Nat.sub_le _ _) t.isLt)
  have e : (t.val % 16 + 1) * 128 = 2048 := by omega
  rw [new3 V c t h0 ih r d, e]
  unfold Cert.Spec.featsKc
  rw [row3_hi _ _ _ d q hq]
  exact g3_total (xarr V c) (lenOf V c) (rowOf t.val r) d

/-- The block stored at a last tile: the statistics rows of the row block's 256 batch rows. -/
theorem out_apply (c : Dev nD) (t : Fin cfg0.N) (h0 : ¬t.val % 16 = 0) (h1 : t.val % 16 = 15) (r : Fin 256) (q : Fin 96) :
    (outsAt0 V c t.val t.isLt).1 (ix2 r q) = Cert.Spec.featsKc (xarr V c) (lenOf V c) (rowOf t.val r) q := by
  rw [outsAt0_C V c t h0 h1, soutC (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (prevAt V c t).1 (prevAt V c t).2.1 (prevAt V c t).2.2]
  dsimp only
  refine View.canon_apply_of_pieces (fun y : S256x96.Idx => Cert.Spec.featsKc (xarr V c) (lenOf V c) (rowOf t.val (y 0)) (y 1)) _ ?_ (ix2 r q)
    (outC_cover (F := Ideal) (grid0.coords t) (iblk0 V c 0 t) (iblk0 V c 1 t) (prevAt V c t).1 (prevAt V c t).2.1 (prevAt V c t).2.2 (ix2 r q))
  intro p hp x
  simp only [List.mem_cons, List.not_mem_nil, or_false] at hp
  rcases hp with rfl | rfl | rfl
  · obtain ⟨r', d', rfl⟩ : ∃ (r' : Fin 256) (d' : Fin 32), x = ix2 r' d' := ⟨x 0, x 1, eq_ix2 x⟩
    refine fin_last V c t h0 h1 r' d' _ ?_ _ ?_
    · show 64 + 1 * d'.val = 64 + d'.val; omega
    · show 0 + 1 * r'.val = r'.val; omega
  · obtain ⟨r', d', rfl⟩ : ∃ (r' : Fin 256) (d' : Fin 32), x = ix2 r' d' := ⟨x 0, x 1, eq_ix2 x⟩
    refine fin_std V c t h0 h1 r' d' _ ?_ _ ?_
    · show 32 + 1 * d'.val = 32 + d'.val; omega
    · show 0 + 1 * r'.val = r'.val; omega
  · obtain ⟨r', d', rfl⟩ : ∃ (r' : Fin 256) (d' : Fin 32), x = ix2 r' d' := ⟨x 0, x 1, eq_ix2 x⟩
    refine fin_mean V c t h0 h1 r' d' _ ?_ _ ?_
    · show 0 + 1 * d'.val = d'.val; omega
    · show 0 + 1 * r'.val = r'.val; omega

theorem flushed_eq (c : Dev nD) (t : Fin cfg0.N) (hf : (cfg0.win 2).flush t = true) :
    (dat0 (F := Ideal) V c).flushed 2 t
      = ((cfg0.win 2).blk t).view.read (Elt Ideal) (Cert.Spec.featsK (xarr V c) (lenOf V c)) := by
  have h1 : t.val % 16 = 15 := (flush0_2 t).mp hf
  have h0 : ¬t.val % 16 = 0 := by omega
  obtain ⟨e0, e1, e2, e3, e4, e5, e6, e7⟩ := idx_facts t
  have hN : t.val < 128 := lt_of_lt_of_eq t.isLt (show cfg0.N = 128 from N_0)
  show (cfg0.win 2).cut (grid0.coords t) ((dat0 (F := Ideal) V c).after 2 t) = _
  rw [after0_2]
  funext y
  obtain ⟨r, q, rfl⟩ : ∃ (r : Fin 256) (q : Fin 96), y = ix2 r q := ⟨y 0, y 1, eq_ix2 y⟩
  rw [View.read_apply]
  refine (out_apply V c t h0 h1 r q).trans ?_
  unfold Cert.Spec.featsK
  show Cert.Spec.featsKc (xarr V c) (lenOf V c) (rowOf t.val r) q
    = Cert.Spec.featsKc (xarr V c) (lenOf V c) ((((cfg0.win 2).blk t).view.emb (ix2 r q)) 0) ((((cfg0.win 2).blk t).view.emb (ix2 r q)) 1)
  have a0 : ((((cfg0.win 2).blk t).view.emb (ix2 r q)) 0 : Fin 2048) = rowOf t.val r :=
    Fin.ext (by
      show win0_2.index t (0 : Fin 2) * 256 + 1 * r.val = (256 * (t.val / 16) + r.val) % 2048
      rw [e5]; have := r.isLt; omega)
  have a1 : ((((cfg0.win 2).blk t).view.emb (ix2 r q)) 1 : Fin 96) = q :=
    Fin.ext (by
      show win0_2.index t (1 : Fin 2) * 96 + 1 * q.val = q.val
      rw [e6]; omega)
  rw [a0, a1]

theorem cover (c : Dev nD) (i : ((cfg0.win 2).arr.view.loc ((c : Thread nD τ))).2.ty.Idx) :
    ∃ t : Fin cfg0.N, (cfg0.win 2).flush t = true ∧ i ∈ ((cfg0.win 2).blk t).view.set := by
  have hN : cfg0.N = 128 := N_0
  have hi0 : (i 0 : Nat) < 2048 := (i 0).isLt
  have hi1 : (i 1 : Nat) < 96 := (i 1).isLt
  let t : Fin cfg0.N := ⟨16 * ((i 0 : Nat) / 256) + 15, by rw [hN]; omega⟩
  obtain ⟨e0, e1, e2, e3, e4, e5, e6, e7⟩ := idx_facts t
  have tv : t.val = 16 * ((i 0 : Nat) / 256) + 15 := rfl
  refine ⟨t, (flush0_2 t).mpr (by rw [tv]; omega), ?_⟩
  show i ∈ ((View.whole main_v1).slice (win0_2.rect t)).set
  rw [View.set_slice_whole, Rect.mem_set_unit]
  intro a
  match a with
  | ⟨0, _⟩ =>
    show win0_2.index t (0 : Fin 2) * 256 ≤ (i 0 : Nat) ∧ (i 0 : Nat) < win0_2.index t (0 : Fin 2) * 256 + 256
    rw [e5, tv]; omega
  | ⟨1, _⟩ =>
    show win0_2.index t (1 : Fin 2) * 96 ≤ (i 1 : Nat) ∧ (i 1 : Nat) < win0_2.index t (1 : Fin 2) * 96 + 96
    rw [e6]; omega

/-- After the run the output array holds the one-pass statistics of x and the lengths, row by row. -/
theorem feats_arr (c : Dev nD) :
    (dat0 (F := Ideal) V c).arrAt 2 cfg0.N
      = Cert.Spec.featsK (V c main_arg0) (fun j => (V c main_v0) (ix2 (j 0) 0)) :=
  (dat0 (F := Ideal) V c).arrAt_eq_of_cover 2 (Cert.Spec.featsK (xarr V c) (lenOf V c))
    (fun t hf => flushed_eq V c t hf) (cover c)

end Cert.KernelIdeal.Val.R0

end
-- ==== Proof.KI.R1Pay0.lean ====
import proofs.«401628_j66357244723446_2_alg».proof.Proof.Gen.KernelIdeal.Skeleton
import proofs.«401628_j66357244723446_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Val.R1

open Idealize.ShloMosaic Idealize.SL.Sem Idealize.ShloMosaic.ValueIdx Cert.KernelIdeal Cert.KernelIdeal.Gen

variable {F : FTy → Type} [FloatOps F]

/-- A rows-by-columns product into the zero accumulator, at `(b, h)`: the sum over the shared coordinate. -/
theorem mm_apply {m K N : ℕ} {φ₁ φ₂ : FTy} (x : FVec Ideal ⟨2, ![m, K]⟩ φ₁) (w : FVec Ideal ⟨2, ![K, N]⟩ φ₂) (b : Fin m) (h : Fin N) :
    matmul (DotDims.plain m K N) none x w (constant (F := Ideal) ⟨2, ![m, N]⟩ .f32 0x00000000#32) (ix2 b h)
      = ∑ k : Fin K, x (ix2 b k) * w (ix2 k h) := by
  refine (Ideal.matmul_constant_zero_apply _ none x w (ix2 b h)).trans ?_
  rw [← Equiv.sum_comp (contrEquiv1 (DotDims.plain m K N) K rfl rfl).symm]
  refine Finset.sum_congr rfl fun k _ => ?_
  have hk := contrEquiv1_symm_val (DotDims.plain m K N) K rfl rfl k
  refine congrArg₂ (· * ·) (congrArg x (funext fun a => Fin.ext ?_)) (congrArg w (funext fun a => Fin.ext ?_))
  · match a with
    | ⟨0, _⟩ => rfl
    | ⟨1, _⟩ => exact hk
  · match a with
    | ⟨0, _⟩ => exact hk
    | ⟨1, _⟩ => rfl

/-- The slab `w` is member `mm`'s part of the stacked array `W`. -/
def Slab3 {n0 n1 n2 : ℕ} (w : (⟨3, ![1, n1, n2]⟩ : Shape).Idx → EReal) (W : (⟨3, ![n0, n1, n2]⟩ : Shape).Idx → EReal) (mm : Fin n0) : Prop :=
  ∀ h k, w (ix3 (0 : Fin 1) h k) = W (ix3 mm h k)
def Slab2 {n0 n1 : ℕ} (v : (⟨2, ![1, n1]⟩ : Shape).Idx → EReal) (V : (⟨2, ![n0, n1]⟩ : Shape).Idx → EReal) (mm : Fin n0) : Prop :=
  ∀ h, v (ix2 (0 : Fin 1) h) = V (ix2 mm h)

section Lin
variable {K N : ℕ} (hc : (⟨3, ![1, N, K]⟩ : Shape).ShapeCasts ⟨2, ![N, K]⟩) (ht : (⟨2, ![N, K]⟩ : Shape).Transposes [1, 0] ⟨2, ![K, N]⟩)
  (h1 : (⟨2, ![1, N]⟩ : Shape).ShapeCasts ⟨1, ![N]⟩) (h2 : (⟨1, ![N]⟩ : Shape).ShapeCasts ⟨2, ![1, N]⟩)
  (h3 : (⟨2, ![1, N]⟩ : Shape).Broadcasts ⟨2, ![2048, N]⟩)

/-- A linear layer: the rows of `x` against the slab `w`, its unit axis dropped and transposed, plus the bias row `c`. -/
def linK (x : FVec F ⟨2, ![2048, K]⟩ .f32) (w : FVec F ⟨3, ![1, N, K]⟩ .f32) (c : FVec F ⟨2, ![1, N]⟩ .f32) : FVec F ⟨2, ![2048, N]⟩ .f32 :=
  addf (matmul (DotDims.plain 2048 K N) none (truncf .bf16 x bitsLt_bf16_f32)
      (transpose ⟨2, ![K, N]⟩ [1, 0] (truncf .bf16 (shapeCast ⟨2, ![N, K]⟩ w hc) bitsLt_bf16_f32) ht)
      (constant ⟨2, ![2048, N]⟩ .f32 0x00000000#32))
    (broadcastTo ⟨2, ![2048, N]⟩ (shapeCast ⟨2, ![1, N]⟩ (shapeCast ⟨1, ![N]⟩ c h1) h2) h3)

theorem linK_apply {n0 : ℕ} (x : FVec Ideal ⟨2, ![2048, K]⟩ .f32) (w : FVec Ideal ⟨3, ![1, N, K]⟩ .f32) (c : FVec Ideal ⟨2, ![1, N]⟩ .f32)
    (X : Fin 2048 → Fin K → EReal) (W : (⟨3, ![n0, N, K]⟩ : Shape).Idx → EReal) (C : (⟨2, ![n0, N]⟩ : Shape).Idx → EReal) (mm : Fin n0)
    (hx : ∀ b k, x (ix2 b k) = X b k) (hw : Slab3 w W mm) (hC : Slab2 c C mm) (b : Fin 2048) (h : Fin N) :
    linK hc ht h1 h2 h3 x w c (ix2 b h) = (∑ k : Fin K, X b k * W (ix3 mm h k)) + C (ix2 mm h) :=
  congrArg₂ (· + ·)
    ((mm_apply _ _ b h).trans (Finset.sum_congr rfl fun k _ => congrArg₂ (· * ·) (hx b k)
      ((transpose_ix2_apply _ ht k h).trans ((shapeCast_1ab_ab_apply w hc h k).trans (hw h k)))))
    ((broadcastTo_1b_ab_apply _ h3 b h).trans ((shapeCast_a_1a_apply _ h2 0 h).trans ((shapeCast_1a_a_apply c h1 h).trans (hC h))))

end Lin

end Cert.KernelIdeal.Val.R1

end
-- ==== Proof.KI.R1Pay1.lean ====
import proofs.«401628_j66357244723446_2_alg».proof.Proof.KI.R1Pay0

noncomputable section

open scoped BigOperators

namespace Cert.KernelIdeal.Val.R1

open Idealize.ShloMosaic Idealize.SL.Sem Idealize.ShloMosaic.ValueIdx Cert.KernelIdeal Cert.KernelIdeal.Gen

variable {F : FTy → Type} [FloatOps F]

section Norm
variable {n : ℕ} (hr : (⟨2, ![2048, n]⟩ : Shape).Reduces [0] ⟨1, ![n]⟩) (h1 : (⟨2, ![1, n]⟩ : Shape).ShapeCasts ⟨1, ![n]⟩)
  (hc : (⟨1, ![n]⟩ : Shape).ShapeCasts ⟨2, ![1, n]⟩) (hb : (⟨2, ![1, n]⟩ : Shape).Broadcasts ⟨2, ![2048, n]⟩)

/-- The column means of `z`, as a row. -/
def meanRow (z : FVec F ⟨2, ![2048, n]⟩ .f32) : FVec F ⟨2, ![1, n]⟩ .f32 :=
  divf (shapeCast ⟨2, ![1, n]⟩ (multiReduction .add [0] ⟨1, ![n]⟩ z 0x00000000#32 hr (.inl rfl) rfl) hc)
    (broadcast ⟨2, ![1, n]⟩ (Scalar.ofBits .f32 0x45000000#32))

theorem meanRow_apply (z : FVec Ideal ⟨2, ![2048, n]⟩ .f32) (u : Fin 1) (h : Fin n) :
    meanRow hr hc z (ix2 u h) = Cert.Spec.mean2048 (fun b => z (ix2 b h)) :=
  congrArg (Ideal.div · Cert.Spec.c2048) ((shapeCast_a_1a_apply _ hc u h).trans
    ((Ideal.multiReduction_add_single z _ hr (.inl rfl) rfl (ix1 h)).trans
      (Finset.sum_congr rfl fun b _ => congrArg z (funext fun a => Fin.ext (by
        match a with
        | ⟨0, _⟩ => rfl
        | ⟨1, _⟩ => rfl)))))

/-- Normalisation of `z` by columns with the scale row `g` and the shift row `be`, then the rectifier. -/
def nreluK (z : FVec F ⟨2, ![2048, n]⟩ .f32) (g be : FVec F ⟨2, ![1, n]⟩ .f32) : FVec F ⟨2, ![2048, n]⟩ .f32 :=
  have c : FVec F ⟨2, ![2048, n]⟩ .f32 := subf z (broadcastTo ⟨2, ![2048, n]⟩ (meanRow hr hc z) hb)
  maximumf
    (addf
      (mulf
        (mulf c (broadcastTo ⟨2, ![2048, n]⟩
          (rsqrt (addf (meanRow hr hc (mulf c c)) (broadcast ⟨2, ![1, n]⟩ (Scalar.ofBits .f32 0x3727C5AC#32)))) hb))
        (broadcastTo ⟨2, ![2048, n]⟩ (shapeCast ⟨2, ![1, n]⟩ (shapeCast ⟨1, ![n]⟩ g h1) hc) hb))
      (broadcastTo ⟨2, ![2048, n]⟩ (shapeCast ⟨2, ![1, n]⟩ (shapeCast ⟨1, ![n]⟩ be h1) hc) hb))
    (broadcast ⟨2, ![2048, n]⟩ (Scalar.ofBits .f32 0x00000000#32))

theorem nreluK_apply {n0 : ℕ} (z : FVec Ideal ⟨2, ![2048, n]⟩ .f32) (g be : FVec Ideal ⟨2, ![1, n]⟩ .f32)
    (Z : Fin 2048 → Fin n → EReal) (G BE : (⟨2, ![n0, n]⟩ : Shape).Idx → EReal) (mm : Fin n0)
    (hz : ∀ b h, z (ix2 b h) = Z b h) (hg : Slab2 g G mm) (hbe : Slab2 be BE mm) (b : Fin 2048) (h : Fin n) :
    nreluK hr h1 hc hb z g be (ix2 b h) = max (Cert.Spec.bn (fun b' => Z b' h) (G (ix2 mm h)) (BE (ix2 mm h)) b) 0 := by
  obtain rfl : (fun b h => z (ix2 b h)) = Z := funext fun b => funext fun h => hz b h
  have hm : ∀ p : Fin 2048, subf z (broadcastTo ⟨2, ![2048, n]⟩ (meanRow hr hc z) hb) (ix2 p h)
      = z (ix2 p h) - Cert.Spec.mean2048 (fun b' => z (ix2 b' h)) := fun p =>
    congrArg (z (ix2 p h) - ·) ((broadcastTo_1b_ab_apply _ hb p h).trans (meanRow_apply hr hc z 0 h))
  have hrow : ∀ (v : FVec Ideal ⟨2, ![1, n]⟩ .f32),
      broadcastTo ⟨2, ![2048, n]⟩ (shapeCast ⟨2, ![1, n]⟩ (shapeCast ⟨1, ![n]⟩ v h1) hc) hb (ix2 b h) = v (ix2 (0 : Fin 1) h) := fun v =>
    (broadcastTo_1b_ab_apply _ hb b h).trans ((shapeCast_a_1a_apply _ hc 0 h).trans (shapeCast_1a_a_apply v h1 h))
  unfold nreluK Cert.Spec.bn
  refine congrArg₂ max (congrArg₂ (· + ·) (congrArg₂ (· * ·) (congrArg₂ (· * ·) (hm b) ?_) ((hrow g).trans (hg h)))
    ((hrow be).trans (hbe h))) Ideal.ofBits_zero_f32
  refine (broadcastTo_1b_ab_apply _ hb b h).trans (congrArg (fun s => Ideal.rsqrt (s + Cert.Spec.ceps)) ?_)
  exact (meanRow_apply hr hc _ 0 h).trans (congrArg Cert.Spec.mean2048 (funext fun p => congrArg₂ (· * ·) (hm p) (hm p)))

end Norm

end Cert.KernelIdeal.Val.R1

end
-- ==== Proof.KI.R1Pay2.lean ====
import proofs.«401628_j66357244723446_2_alg».proof.Proof.KI.R1Pay1

noncomputable section

open scoped BigOperators

namespace Cert.KernelIdeal.Val.R1

open Idealize.ShloMosaic Idealize.SL.Sem Idealize.ShloMosaic.ValueIdx Cert.KernelIdeal Cert.KernelIdeal.Gen

variable {F : FTy → Type} [FloatOps F]

/-- One member's pass over the statistics `x`: three linear layers, the first two normalised and rectified. -/
def memK (x : FVec F S2048x96 .f32) (w1 : FVec F S1x256x96 .f32) (b1 g1 be1 : FVec F S1x256 .f32) (w2 : FVec F S1x128x256 .f32)
    (b2 g2 be2 : FVec F S1x128 .f32) (w3 : FVec F S1x2x128 .f32) (b3 : FVec F S1x2 .f32) : FVec F S2048x2 .f32 :=
  linK shapeCasts_S1x2x128_S2x128 transposes_S2x128_p1_0_S128x2 shapeCasts_S1x2_S2 shapeCasts_S2_S1x2 broadcasts_S1x2_S2048x2
    (nreluK reduces_S2048x128_S128 shapeCasts_S1x128_S128 shapeCasts_S128_S1x128 broadcasts_S1x128_S2048x128
      (linK shapeCasts_S1x128x256_S128x256 transposes_S128x256_p1_0_S256x128 shapeCasts_S1x128_S128 shapeCasts_S128_S1x128
        broadcasts_S1x128_S2048x128
        (nreluK reduces_S2048x256_S256 shapeCasts_S1x256_S256 shapeCasts_S256_S1x256 broadcasts_S1x256_S2048x256
          (linK shapeCasts_S1x256x96_S256x96 transposes_S256x96_p1_0_S96x256 shapeCasts_S1x256_S256 shapeCasts_S256_S1x256
            broadcasts_S1x256_S2048x256 (shapeCast S2048x96 x shapeCasts_S2048x96_S2048x96) w1 b1)
          g1 be1)
        w2 b2)
      g2 be2)
    w3 b3

/-- On member `mm`'s slabs of the stacked parameters it is the specification's output layer of that member. -/
theorem memK_apply (x : Vec Ideal S2048x96 .f32) (w1 : Vec Ideal S1x256x96 .f32) (b1 g1 be1 : Vec Ideal S1x256 .f32)
    (w2 : Vec Ideal S1x128x256 .f32) (b2 g2 be2 : Vec Ideal S1x128 .f32) (w3 : Vec Ideal S1x2x128 .f32) (b3 : Vec Ideal S1x2 .f32)
    (W1 : Cert.Spec.SW1.Idx → EReal) (B1 G1 BE1 : Cert.Spec.SV1.Idx → EReal)
    (W2 : Cert.Spec.SW2.Idx → EReal) (B2 G2 BE2 : Cert.Spec.SV2.Idx → EReal)
    (W3 : Cert.Spec.SW3.Idx → EReal) (B3 : Cert.Spec.SV3.Idx → EReal) (mm : Fin 3)
    (hw1 : Slab3 w1 W1 mm) (hb1 : Slab2 b1 B1 mm) (hg1 : Slab2 g1 G1 mm) (hbe1 : Slab2 be1 BE1 mm)
    (hw2 : Slab3 w2 W2 mm) (hb2 : Slab2 b2 B2 mm) (hg2 : Slab2 g2 G2 mm) (hbe2 : Slab2 be2 BE2 mm)
    (hw3 : Slab3 w3 W3 mm) (hb3 : Slab2 b3 B3 mm) (b : Fin 2048) (j : Fin 2) :
    memK (F := Ideal) x w1 b1 g1 be1 w2 b2 g2 be2 w3 b3 (ix2 b j) = Cert.Spec.o3 x W1 B1 G1 BE1 W2 B2 G2 BE2 W3 B3 mm b j :=
  linK_apply _ _ _ _ _ _ w3 b3 (Cert.Spec.n2 x W1 B1 G1 BE1 W2 B2 G2 BE2 mm) W3 B3 mm (fun p k =>
    nreluK_apply _ _ _ _ _ g2 be2 (Cert.Spec.h2 x W1 B1 G1 BE1 W2 B2 mm) G2 BE2 mm (fun p k =>
      linK_apply _ _ _ _ _ _ w2 b2 (Cert.Spec.n1 x W1 B1 G1 BE1 mm) W2 B2 mm (fun p h =>
        nreluK_apply _ _ _ _ _ g1 be1 (Cert.Spec.h1 x W1 B1 mm) G1 BE1 mm (fun p h =>
          linK_apply _ _ _ _ _ _ w1 b1 (fun p k => x (ix2 p k)) W1 B1 mm
            (fun p k => congrFun (shapeCast_self x _) _) hw1 hb1 p h)
          hg1 hbe1 p h)
        hw2 hb2 p k)
      hg2 hbe2 p k)
    hw3 hb3 b j

end Cert.KernelIdeal.Val.R1

end
-- ==== Proof.KI.R1Value.lean ====
import proofs.«401628_j66357244723446_2_alg».proof.Proof.KI.R1Frame
import proofs.«401628_j66357244723446_2_alg».proof.Proof.KI.R1Pay2
import Idealize.ShloMosaic.Lib.Tactic

noncomputable section

namespace Cert.KernelIdeal.Val

open Cert.KernelIdeal Cert.KernelIdeal.Gen Cert.KernelIdeal.Fr
open Idealize.ShloMosaic Idealize.ShloMosaic.TcCoe Idealize.ShloMosaic.Tactic Idealize.ShloMosaic.ValueIdx

variable {F : FTy → Type} [FloatOps F]

namespace R1

theorem inb3 {n1 n2 : ℕ} (mm : Fin 3) (a : Fin 3) :
    (![mm.val, 0, 0] : Fin 3 → ℕ) a + (⟨3, ![1, n1, n2]⟩ : Shape).size a ≤ (⟨3, ![3, n1, n2]⟩ : Shape).size a := by
  have := mm.isLt
  match a with
  | ⟨0, _⟩ => show mm.val + 1 ≤ 3; omega
  | ⟨1, _⟩ => show 0 + n1 ≤ n1; omega
  | ⟨2, _⟩ => show 0 + n2 ≤ n2; omega

theorem inb2 {n1 : ℕ} (mm : Fin 3) (a : Fin 2) :
    (![mm.val, 0] : Fin 2 → ℕ) a + (⟨2, ![1, n1]⟩ : Shape).size a ≤ (⟨2, ![3, n1]⟩ : Shape).size a := by
  have := mm.isLt
  match a with
  | ⟨0, _⟩ => show mm.val + 1 ≤ 3; omega
  | ⟨1, _⟩ => show 0 + n1 ≤ n1; omega

/-- Member `mm`'s slab of a stacked array: extent one at offset `mm` on the leading axis, whole on the others. -/
abbrev sl3 {n1 n2 : ℕ} (mm : Fin 3) (x : Vec F ⟨3, ![3, n1, n2]⟩ .f32) : Vec F ⟨3, ![1, n1, n2]⟩ .f32 :=
  View.ld (Val := Elt F) x (Rect.unit (s := ⟨3, ![3, n1, n2]⟩) ![mm.val, 0, 0] (⟨3, ![1, n1, n2]⟩ : Shape).size (inb3 mm))
abbrev sl2 {n1 : ℕ} (mm : Fin 3) (x : Vec F ⟨2, ![3, n1]⟩ .f32) : Vec F ⟨2, ![1, n1]⟩ .f32 :=
  View.ld (Val := Elt F) x (Rect.unit (s := ⟨2, ![3, n1]⟩) ![mm.val, 0] (⟨2, ![1, n1]⟩ : Shape).size (inb2 mm))

theorem sl3_slab {n1 n2 : ℕ} (mm : Fin 3) (x : Vec Ideal ⟨3, ![3, n1, n2]⟩ .f32) : Slab3 (sl3 mm x) x mm := fun h k =>
  congrArg x (funext fun a => Fin.ext (by
    match a with
    | ⟨0, _⟩ => show mm.val + 1 * 0 = mm.val; omega
    | ⟨1, _⟩ => show 0 + 1 * h.val = h.val; omega
    | ⟨2, _⟩ => show 0 + 1 * k.val = k.val; omega))

theorem sl2_slab {n1 : ℕ} (mm : Fin 3) (x : Vec Ideal ⟨2, ![3, n1]⟩ .f32) : Slab2 (sl2 mm x) x mm := fun h =>
  congrArg x (funext fun a => Fin.ext (by
    match a with
    | ⟨0, _⟩ => show mm.val + 1 * 0 = mm.val; omega
    | ⟨1, _⟩ => show 0 + 1 * h.val = h.val; omega))

section Stored
variable (x0 : Vec F S2048x96 .f32) (x1 : Vec F S3x256x96 .f32) (x2 x3 x4 : Vec F S3x256 .f32) (x5 : Vec F S3x128x256 .f32)
  (x6 x7 x8 : Vec F S3x128 .f32) (x9 : Vec F S3x2x128 .f32) (x10 : Vec F S3x2 .f32)

/-- Member `mm`'s pass on its slabs of the ten stacked parameter blocks. -/
def mem (mm : Fin 3) : FVec F S2048x2 .f32 :=
  memK x0 (sl3 mm x1) (sl2 mm x2) (sl2 mm x3) (sl2 mm x4) (sl3 mm x5) (sl2 mm x6) (sl2 mm x7) (sl2 mm x8) (sl3 mm x9) (sl2 mm x10)

/-- The body's one stored value: the three members' passes added in order onto zero, divided by three. -/
def outv : FVec F S2048x2 .f32 :=
  divf
    (addf (addf (addf (broadcast S2048x2 (Scalar.ofBits .f32 0x00000000#32)) (mem x0 x1 x2 x3 x4 x5 x6 x7 x8 x9 x10 0))
      (mem x0 x1 x2 x3 x4 x5 x6 x7 x8 x9 x10 1)) (mem x0 x1 x2 x3 x4 x5 x6 x7 x8 x9 x10 2))
    (broadcast S2048x2 (Scalar.ofBits .f32 0x40400000#32))

theorem hz2 : (![0, 0] : Fin 2 → Nat) = fun _ => 0 := funext fun a => by fin_cases a <;> rfl

/-- The run's one piece, the whole-block store, holds `outv` of the input blocks. -/
theorem run1_canon (c : Dev nD) (i : grid1.Coords) (arg1 : Memref sig .tc .vmem S2048x96 .f32) (harg1 : arg1.IsWhole) (arg2 : Memref sig .tc .vmem S3x256x96 .f32) (harg2 : arg2.IsWhole) (arg3 : Memref sig .tc .vmem S3x256 .f32) (harg3 : arg3.IsWhole) (arg4 : Memref sig .tc .vmem S3x256 .f32) (harg4 : arg4.IsWhole) (arg5 : Memref sig .tc .vmem S3x256 .f32) (harg5 : arg5.IsWhole) (arg6 : Memref sig .tc .vmem S3x128x256 .f32) (harg6 : arg6.IsWhole) (arg7 : Memref sig .tc .vmem S3x128 .f32) (harg7 : arg7.IsWhole) (arg8 : Memref sig .tc .vmem S3x128 .f32) (harg8 : arg8.IsWhole) (arg9 : Memref sig .tc .vmem S3x128 .f32) (harg9 : arg9.IsWhole) (arg10 : Memref sig .tc .vmem S3x2x128 .f32) (harg10 : arg10.IsWhole) (arg11 : Memref sig .tc .vmem S3x2 .f32) (harg11 : arg11.IsWhole) (arg12 : Memref sig .tc .vmem S2048x2 .f32) (harg12 : arg12.IsWhole) :
    View.canon (kernelRun1 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10).1
      = outv x0 x1 x2 x3 x4 x5 x6 x7 x8 x9 x10 := by
  unfold kernelRun1
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S2048x96) hz2]
  rfl

end Stored

section Ideal
variable (x0 : Vec Ideal S2048x96 .f32) (x1 : Vec Ideal S3x256x96 .f32) (x2 x3 x4 : Vec Ideal S3x256 .f32)
  (x5 : Vec Ideal S3x128x256 .f32) (x6 x7 x8 : Vec Ideal S3x128 .f32) (x9 : Vec Ideal S3x2x128 .f32) (x10 : Vec Ideal S3x2 .f32)

/-- The body's result is the specification's ensemble mean of the input blocks: each member's pass is its output layer. -/
theorem out1_11_mlp (c : Dev nD) (t : Fin cfg1.N) :
    out1_11 (F := Ideal) c t x0 x1 x2 x3 x4 x5 x6 x7 x8 x9 x10 = Cert.Spec.mlp x0 x1 x2 x3 x4 x5 x6 x7 x8 x9 x10 := by
  refine (View.read_writes_eq_canon _ _ _ fun y => ?_).trans ((run1_canon x0 x1 x2 x3 x4 x5 x6 x7 x8 x9 x10 c _ _ _ _ _ _ _ _ _ _ _ _ _ _ _ _ _ _ _ _ _ _ _ _ _).trans (funext fun i => ?_))
  · apply cover1_11
  obtain ⟨b, j, rfl⟩ : ∃ (b : Fin 2048) (j : Fin 2), i = ix2 b j := ⟨i 0, i 1, eq_ix2 i⟩
  have hm : ∀ mm : Fin 3, mem (F := Ideal) x0 x1 x2 x3 x4 x5 x6 x7 x8 x9 x10 mm (ix2 b j)
      = Cert.Spec.o3 x0 x1 x2 x3 x4 x5 x6 x7 x8 x9 x10 mm b j := fun mm =>
    memK_apply x0 _ _ _ _ _ _ _ _ _ _ x1 x2 x3 x4 x5 x6 x7 x8 x9 x10 mm (sl3_slab mm x1) (sl2_slab mm x2) (sl2_slab mm x3)
      (sl2_slab mm x4) (sl3_slab mm x5) (sl2_slab mm x6) (sl2_slab mm x7) (sl2_slab mm x8) (sl3_slab mm x9) (sl2_slab mm x10) b j
  exact congrArg (Ideal.div · Cert.Spec.c3) (congrArg₂ (· + ·) (congrArg₂ (· + ·)
    ((congrArg₂ (· + ·) Ideal.ofBits_zero_f32 (hm 0)).trans (zero_add _)) (hm 1)) (hm 2))

end Ideal

/-- An index whose every coordinate sits at zero times the extent plus itself is the index. -/
theorem idx_whole {s : Shape} (y e : s.Idx) (h : ∀ a, (e a).val = 0 * s.size a + 1 * (y a).val) : e = y :=
  funext fun a => Fin.ext ((h a).trans (by omega))

section Blocks
variable (V : (c : Dev nD) → (b : Ref sig .tc) → Buf (Elt F) ((c : Thread nD τ).loc b)) (c : Dev nD) (t : Fin cfg1.N)

theorem iblk1_0 : (iblk1 V c 0 t : Vec F S2048x96 .f32) = V c main_v1 :=
  funext fun y => congrArg (V c main_v1) (idx_whole y _ fun a => by fin_cases a <;> rfl)
theorem iblk1_1 : (iblk1 V c 1 t : Vec F S3x256x96 .f32) = V c main_arg2 :=
  funext fun y => congrArg (V c main_arg2) (idx_whole y _ fun a => by fin_cases a <;> rfl)
theorem iblk1_2 : (iblk1 V c 2 t : Vec F S3x256 .f32) = V c main_arg3 :=
  funext fun y => congrArg (V c main_arg3) (idx_whole y _ fun a => by fin_cases a <;> rfl)
theorem iblk1_3 : (iblk1 V c 3 t : Vec F S3x256 .f32) = V c main_arg4 :=
  funext fun y => congrArg (V c main_arg4) (idx_whole y _ fun a => by fin_cases a <;> rfl)
theorem iblk1_4 : (iblk1 V c 4 t : Vec F S3x256 .f32) = V c main_arg5 :=
  funext fun y => congrArg (V c main_arg5) (idx_whole y _ fun a => by fin_cases a <;> rfl)
theorem iblk1_5 : (iblk1 V c 5 t : Vec F S3x128x256 .f32) = V c main_arg6 :=
  funext fun y => congrArg (V c main_arg6) (idx_whole y _ fun a => by fin_cases a <;> rfl)
theorem iblk1_6 : (iblk1 V c 6 t : Vec F S3x128 .f32) = V c main_arg7 :=
  funext fun y => congrArg (V c main_arg7) (idx_whole y _ fun a => by fin_cases a <;> rfl)
theorem iblk1_7 : (iblk1 V c 7 t : Vec F S3x128 .f32) = V c main_arg8 :=
  funext fun y => congrArg (V c main_arg8) (idx_whole y _ fun a => by fin_cases a <;> rfl)
theorem iblk1_8 : (iblk1 V c 8 t : Vec F S3x128 .f32) = V c main_arg9 :=
  funext fun y => congrArg (V c main_arg9) (idx_whole y _ fun a => by fin_cases a <;> rfl)
theorem iblk1_9 : (iblk1 V c 9 t : Vec F S3x2x128 .f32) = V c main_arg10 :=
  funext fun y => congrArg (V c main_arg10) (idx_whole y _ fun a => by fin_cases a <;> rfl)
theorem iblk1_10 : (iblk1 V c 10 t : Vec F S3x2 .f32) = V c main_arg11 :=
  funext fun y => congrArg (V c main_arg11) (idx_whole y _ fun a => by fin_cases a <;> rfl)

theorem blk11_read (G : S2048x2.Idx → Elt F .f32) : ((cfg1.win 11).blk t).view.read (Elt F) G = G :=
  funext fun y => congrArg G (idx_whole y _ fun a => by fin_cases a <;> rfl)

theorem cover11 (i : S2048x2.Idx) :
    ∃ t : Fin cfg1.N, (cfg1.win 11).flush t = true ∧ i ∈ ((cfg1.win 11).blk t).view.set := by
  refine ⟨t1_0, flush1_11 t1_0, ?_⟩
  show i ∈ ((View.whole main_v2).slice (win1_11.rect t1_0)).set
  rw [View.set_slice_whole, Rect.mem_set_unit]
  intro a
  fin_cases a <;> exact ⟨Nat.zero_le _, (i _).isLt⟩

end Blocks

end R1

open R1

/-- The kernel's result array after the run is the specification's ensemble mean of the region's entry arrays. -/
theorem out_arr (V : (c : Dev nD) → (b : Ref sig .tc) → Buf (Elt Ideal) ((c : Thread nD τ).loc b)) (c : Dev nD) :
    (dat1 (F := Ideal) V c).arrAt 11 cfg1.N
      = Cert.Spec.mlp (V c main_v1) (V c main_arg2) (V c main_arg3) (V c main_arg4) (V c main_arg5) (V c main_arg6) (V c main_arg7) (V c main_arg8) (V c main_arg9) (V c main_arg10) (V c main_arg11) :=
  (dat1 (F := Ideal) V c).arrAt_eq_of_cover 11 _ (fun t _ => by
    refine Eq.trans ?_ (blk11_read (F := Ideal) t _).symm
    show (cfg1.win 11).cut (grid1.coords t) ((dat1 V c).after 11 t) = _
    rw [after1_11, iblk1_0 V c t, iblk1_1 V c t, iblk1_2 V c t, iblk1_3 V c t, iblk1_4 V c t, iblk1_5 V c t, iblk1_6 V c t,
      iblk1_7 V c t, iblk1_8 V c t, iblk1_9 V c t, iblk1_10 V c t]
    exact out1_11_mlp _ _ _ _ _ _ _ _ _ _ _ c t) cover11

end Cert.KernelIdeal.Val

end
-- ==== Proof.Assembly.lean ====
/- Both idealized programs end at one array: the ensemble perceptron of the one-pass statistics of `x` and the lengths. The
   kernel computes it as such; the reference computes the statistics in two passes, which agree with the one-pass form for
   finite `x` and lengths in [2, 2048]. -/
import proofs.«401628_j66357244723446_2_alg».proof.Defs
import proofs.«401628_j66357244723446_2_alg».proof.Proof.Gen.Kernel
import proofs.«401628_j66357244723446_2_alg».proof.Proof.Gen.KernelIdeal
import proofs.«401628_j66357244723446_2_alg».proof.Proof.Gen.ReferenceIdeal
import proofs.«401628_j66357244723446_2_alg».proof.Proof.Gen.ReferenceIdeal.Run
import proofs.«401628_j66357244723446_2_alg».proof.Proof.Gen.ReferenceIdeal.Read
import proofs.«401628_j66357244723446_2_alg».proof.Proof.Gen.Pre_finite_inputs
import proofs.«401628_j66357244723446_2_alg».proof.Proof.Spec
import proofs.«401628_j66357244723446_2_alg».proof.Proof.SpecLaw
import proofs.«401628_j66357244723446_2_alg».proof.Proof.PreDecode
import proofs.«401628_j66357244723446_2_alg».proof.Proof.Ref.Feats
import proofs.«401628_j66357244723446_2_alg».proof.Proof.Ref.Mlp2
import proofs.«401628_j66357244723446_2_alg».proof.Proof.KI.Main
import proofs.«401628_j66357244723446_2_alg».proof.Proof.KI.R0Value
import proofs.«401628_j66357244723446_2_alg».proof.Proof.KI.R1Value
import proofs.«401628_j66357244723446_2_alg».proof.Proof.K.Main
import Idealize.ShloMosaic.Lib.Pipeline.Value
import Idealize.ShloMosaic.Lib.ValueLayout

noncomputable section

namespace Cert.Proof.Claims

open Idealize.ShloMosaic Idealize.ShloMosaic.TcCoe Idealize.SL.Sem Idealize.ShloMosaic.ValueIdx

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

def G (x0 : Cert.Spec.SX.Idx → EReal) (x1 : Cert.Spec.SL.Idx → BitVec 32) (x2 : Cert.Spec.SW1.Idx → EReal) (x3 x4 x5 : Cert.Spec.SV1.Idx → EReal)
    (x6 : Cert.Spec.SW2.Idx → EReal) (x7 x8 x9 : Cert.Spec.SV2.Idx → EReal) (x10 : Cert.Spec.SW3.Idx → EReal) (x11 : Cert.Spec.SV3.Idx → EReal) : Cert.Spec.SO.Idx → EReal :=
  Cert.Spec.mlp (Cert.Spec.featsK x0 x1) x2 x3 x4 x5 x6 x7 x8 x9 x10 x11

section Reference
open Cert.ReferenceIdeal

abbrev rX (m' : (ℓ : Loc nD τ sig) → Buf (Elt Ideal) ℓ) (c : Dev nD) : Cert.Spec.SX.Idx → EReal := m' ((c.tc : Thread nD τ).loc main_arg0)
abbrev rLen (m' : (ℓ : Loc nD τ sig) → Buf (Elt Ideal) ℓ) (c : Dev nD) : Cert.Spec.SL.Idx → BitVec 32 := m' ((c.tc : Thread nD τ).loc main_arg1)

theorem ref_value (m' : (ℓ : Loc nD τ sig) → Buf (Elt Ideal) ℓ) (ρ' : Dev nD → PrngReg)
    (hx : ∀ c : Dev nD, ∀ i, rX m' c i ≠ ⊤ ∧ rX m' c i ≠ ⊥)
    (hlen : ∀ c : Dev nD, ∀ b : Fin 2048, 2 ≤ (rLen m' c (ix1 b)).toInt ∧ (rLen m' c (ix1 b)).toInt ≤ 2048) :
    θ_run (defs (F := Ideal)) (onTc (τ := τ) (main (F := Ideal))) ⟨m', fun _ => 0, ρ'⟩ (fun r => ∀ c : Dev nD,
      r.2.mem ((c.tc : Thread nD τ).loc main_v111) = G (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)) := by
  refine (θ_run (defs (F := Ideal)) _ _).mono (fun _ h c => ⟨(h c).1.trans ?_, (h c).2⟩) (Cert.ReferenceIdeal.Value.run (F := Ideal) m' ρ')
  rw [Cert.ReferenceIdeal.Read.val_main_v111_eq, Cert.RefVal.ref_mlp, Cert.RefVal.ref_feats _ _ (hlen c), ← Cert.Spec.featsK_eq_featsR _ _ (hx c) (hlen c)]
  rfl

end Reference

section Kernel
open Cert.KernelIdeal Cert.KernelIdeal.Gen Cert.KernelIdeal.Fr

theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem kernel_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2) = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine (θ_run (defs (F := Ideal)) _ _).mono (fun r h c => ⟨(h c _ (mem_uc main_v2 (by decide))).trans ?_,
    (h c _ (mem_uc main_arg0 (by decide))).trans (W3_main_arg0 m ρ c), (h c _ (mem_uc main_arg1 (by decide))).trans (W3_main_arg1 m ρ c),
    (h c _ (mem_uc main_arg2 (by decide))).trans (W3_main_arg2 m ρ c), (h c _ (mem_uc main_arg3 (by decide))).trans (W3_main_arg3 m ρ c),
    (h c _ (mem_uc main_arg4 (by decide))).trans (W3_main_arg4 m ρ c), (h c _ (mem_uc main_arg5 (by decide))).trans (W3_main_arg5 m ρ c),
    (h c _ (mem_uc main_arg6 (by decide))).trans (W3_main_arg6 m ρ c), (h c _ (mem_uc main_arg7 (by decide))).trans (W3_main_arg7 m ρ c),
    (h c _ (mem_uc main_arg8 (by decide))).trans (W3_main_arg8 m ρ c), (h c _ (mem_uc main_arg9 (by decide))).trans (W3_main_arg9 m ρ c),
    (h c _ (mem_uc main_arg10 (by decide))).trans (W3_main_arg10 m ρ c), (h c _ (mem_uc main_arg11 (by decide))).trans (W3_main_arg11 m ρ c)⟩) (run_all m ρ)
  rw [W3_main_v2, Cert.KernelIdeal.Val.out_arr, V2_main_v1, Cert.KernelIdeal.Val.R0.feats_arr, V1_main_arg0, V1_main_v0,
    V2_main_arg2, V2_main_arg3, V2_main_arg4, V2_main_arg5, V2_main_arg6, V2_main_arg7, V2_main_arg8, V2_main_arg9, V2_main_arg10, V2_main_arg11]
  unfold G
  congr 2
  funext j
  rw [eq_ix1 j]
  exact shapeCast_a_a1_apply _ _ _ _

end Kernel

theorem algebraic : Cert.algebraic_KernelIdeal_ReferenceIdeal := by
  intro m ρ m' ρ' hpre hagree
  have hp := fun c : Dev Cert.KernelIdeal.nD => Cert.PreDecode.of_pre _ _ _ _ _ _ _ _ _ _ _ _ (hpre c)
  refine ⟨_, kernel_value m ρ, ?_⟩
  have hr := ref_value m' ρ'
    (fun c i => by have := (hp c).1 i; rw [show rX m' c = _ from (hagree c).1]; exact this)
    (fun c b => by have := (hp c).2 b; rw [show rLen m' c = _ from (hagree c).2.1]; exact this)
  refine (θ_run _ _ _).mono (fun r h c => ?_) hr
  obtain ⟨h0, h1⟩ := h c
  refine ⟨h0.trans ?_, h1⟩
  obtain ⟨a0, a1, a2, a3, a4, a5, a6, a7, a8, a9, a10, a11⟩ := hagree c
  rw [a0, a1, a2, a3, a4, a5, a6, a7, a8, a9, a10, a11]

end Cert.Proof.Claims

end
-- ==== Proof.lean ====
/- A ragged statistics kernel (per batch row the mean, the deviation and the last of the first `n` time steps) followed by a
   three-member perceptron with batch normalisation, against the same in plain array operations. -/
import proofs.«401628_j66357244723446_2_alg».proof.Defs
import proofs.«401628_j66357244723446_2_alg».proof.Proof.Gen.Kernel
import proofs.«401628_j66357244723446_2_alg».proof.Proof.Gen.KernelIdeal
import proofs.«401628_j66357244723446_2_alg».proof.Proof.Gen.ReferenceIdeal
import proofs.«401628_j66357244723446_2_alg».proof.Proof.Gen.Pre_finite_inputs
import proofs.«401628_j66357244723446_2_alg».proof.Proof.Assembly
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
